-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v45 : IVec S_ 1) (main_v50 : IVec S262144 1) : IVec S_ 1 :=
  let main_c_19 : IVec S_ 1 := constantI S_ 1 1#1
  let main_v51 : IVec S_ 1 := (fun x v => Host.reduce IntOp.andi x v reducesTo_S262144_S_d0 h_S_) main_v50 main_c_19
  let main_v52 : IVec S_ 1 := andi main_v45 main_v51
  main_v52

def fn_part2 {F : FTy → Type} [FloatOps F] (main_arg1 : IVec S262144 32) (main_arg2 : IVec S262144 32) (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_c_14 : IVec S_ 32 := constantI S_ 32 0#32
  let main_v39 : IVec S262144 32 := broadcastInDim S262144 ![] bcast_S_S262144 main_c_14
  let main_v40 : IVec S262144 1 := cmpi .sge main_arg1 main_v39
  let main_c_15 : IVec S_ 32 := constantI S_ 32 8192#32
  let main_v41 : IVec S262144 32 := broadcastInDim S262144 ![] bcast_S_S262144 main_c_15
  let main_v42 : IVec S262144 1 := cmpi .slt main_arg1 main_v41
  let main_v43 : IVec S262144 1 := andi main_v40 main_v42
  let main_c_16 : IVec S_ 1 := constantI S_ 1 1#1
  let main_v44 : IVec S_ 1 := (fun x v => Host.reduce IntOp.andi x v reducesTo_S262144_S_d0 h_S_) main_v43 main_c_16
  let main_v45 : IVec S_ 1 := andi main_v38 main_v44
  let main_c_17 : IVec S_ 32 := constantI S_ 32 0#32
  let main_v46 : IVec S262144 32 := broadcastInDim S262144 ![] bcast_S_S262144 main_c_17
  let main_v47 : IVec S262144 1 := cmpi .sge main_arg2 main_v46
  let main_c_18 : IVec S_ 32 := constantI S_ 32 8192#32
  let main_v48 : IVec S262144 32 := broadcastInDim S262144 ![] bcast_S_S262144 main_c_18
  let main_v49 : IVec S262144 1 := cmpi .slt main_arg2 main_v48
  let main_v50 : IVec S262144 1 := andi main_v47 main_v49
  fn_part3 (F := F) main_v45 main_v50

def fn_part1 {F : FTy → Type} [FloatOps F] (main_arg1 : IVec S262144 32) (main_arg2 : IVec S262144 32) (main_arg6 : FVec F S512x512 .f32) (main_arg7 : FVec F S512 .f32) (main_arg8 : FVec F S512x256 .f32) (main_arg9 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg8
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg1 main_arg2 main_arg9 main_v33

def fn {F : FTy → Type} [FloatOps F] (main_arg0 : FVec F S8192x512 .f32) (main_arg1 : IVec S262144 32) (main_arg2 : IVec S262144 32) (main_arg3 : FVec F S262144 .f32) (main_arg4 : FVec F S512x512 .f32) (main_arg5 : FVec F S512 .f32) (main_arg6 : FVec F S512x512 .f32) (main_arg7 : FVec F S512 .f32) (main_arg8 : FVec F S512x256 .f32) (main_arg9 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg2 main_arg6 main_arg7 main_arg8 main_arg9 main_v13 main_v16
-- ==== Kernel.lean ====
abbrev S8192x512 : Shape := ⟨2, ![8192, 512]⟩
abbrev S262144 : Shape := ⟨1, ![262144]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x512 : Shape := ⟨2, ![1, 512]⟩
abbrev S1024x512 : Shape := ⟨2, ![1024, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x1 : Shape := ⟨2, ![512, 1]⟩
abbrev S67108864 : Shape := ⟨1, ![67108864]⟩
abbrev S262144x1 : Shape := ⟨2, ![262144, 1]⟩
abbrev S1024x2048 : Shape := ⟨2, ![1024, 2048]⟩
abbrev S2048x512 : Shape := ⟨2, ![2048, 512]⟩
abbrev S1x256 : Shape := ⟨2, ![1, 256]⟩
abbrev S8192x256 : Shape := ⟨2, ![8192, 256]⟩
abbrev S1024x256 : Shape := ⟨2, ![1024, 256]⟩
abbrev S2048x256 : Shape := ⟨2, ![2048, 256]⟩

abbrev nBuf : Space → Nat
  | .hbm => 38
  | .vmem => 39
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S1x512, .f32⟩
  | .hbm, ⟨11, _⟩ => ⟨S8192x512, .f32⟩
  | .hbm, ⟨12, _⟩ => ⟨S8192x512, .bf16⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S1x512, .f32⟩
  | .hbm, ⟨21, _⟩ => ⟨S8192x512, .f32⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S_, .f32⟩
  | .hbm, ⟨27, _⟩ => ⟨S67108864, .f32⟩
  | .hbm, ⟨28, _⟩ => ⟨S262144x1, .i32⟩
  | .hbm, ⟨29, _⟩ => ⟨S67108864, .f32⟩
  | .hbm, ⟨30, _⟩ => ⟨S8192x8192, .f32⟩
  | .hbm, ⟨31, _⟩ => ⟨S8192x8192, .bf16⟩
  | .hbm, ⟨32, _⟩ => ⟨S8192x512, .bf16⟩
  | .hbm, ⟨33, _⟩ => ⟨S8192x512, .f32⟩
  | .hbm, ⟨34, _⟩ => ⟨S1x256, .f32⟩
  | .hbm, ⟨35, _⟩ => ⟨S8192x256, .f32⟩
  | .hbm, ⟨36, _⟩ => ⟨S8192x256, .bf16⟩
  | .hbm, ⟨37, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S8192x512, .bf16⟩
  | .local _ .vmem, ⟨7, _⟩ => ⟨S512x1, .f32⟩
  | .local _ .vmem, ⟨8, _⟩ => ⟨S512x1, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S1024x512, .f32⟩
  | .local _ .vmem, ⟨14, _⟩ => ⟨S1024x512, .f32⟩
  | .local _ .vmem, ⟨15, _⟩ => ⟨S512x512, .f32⟩
  | .local _ .vmem, ⟨16, _⟩ => ⟨S1x512, .f32⟩
  | .local _ .vmem, ⟨17, _⟩ => ⟨S1024x512, .f32⟩
  | .local _ .vmem, ⟨18, _⟩ => ⟨S1024x512, .f32⟩
  | .local _ .vmem, ⟨19, _⟩ => ⟨S1024x2048, .bf16⟩
  | .local _ .vmem, ⟨20, _⟩ => ⟨S1024x2048, .bf16⟩
  | .local _ .vmem, ⟨21, _⟩ => ⟨S2048x512, .bf16⟩
  | .local _ .vmem, ⟨22, _⟩ => ⟨S2048x512, .bf16⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S512x256, .f32⟩
  | .local _ .vmem, ⟨29, _⟩ => ⟨S1x256, .f32⟩
  | .local _ .vmem, ⟨30, _⟩ => ⟨S1024x256, .f32⟩
  | .local _ .vmem, ⟨31, _⟩ => ⟨S1024x256, .f32⟩
  | .local _ .vmem, ⟨32, _⟩ => ⟨S1024x2048, .bf16⟩
  | .local _ .vmem, ⟨33, _⟩ => ⟨S1024x2048, .bf16⟩
  | .local _ .vmem, ⟨34, _⟩ => ⟨S2048x256, .bf16⟩
  | .local _ .vmem, ⟨35, _⟩ => ⟨S2048x256, .bf16⟩
  | .local _ .vmem, ⟨36, _⟩ => ⟨S1024x256, .f32⟩
  | .local _ .vmem, ⟨37, _⟩ => ⟨S1024x256, .f32⟩
  | .local _ .vmem, ⟨38, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 16], ![false, false]⟩

def k1_mult1 (i : grid1.Coords) : BitVec 32 :=
  let arg0 : BitVec 32 := BitVec.ofNat 32 (i 0).val
  let c512_i32 : BitVec 32 := 512#32
  let v0 : BitVec 32 := Scalar.muli arg0 c512_i32
  v0
def k1_off1 (i : grid1.Coords) : Fin 2 → Nat :=
  let arg0 : BitVec 32 := BitVec.ofNat 32 (i 0).val
  let c512_i32 : BitVec 32 := 512#32
  let v0 : BitVec 32 := Scalar.muli arg0 c512_i32
  let v2 : BitVec 32 := v0
  let v3 : Index := Scalar.indexCast v2
  let c0 : Index := 0#32
  ![v3.toNat, 0]
def k1_mult2 (i : grid1.Coords) : BitVec 32 :=
  let arg1 : BitVec 32 := BitVec.ofNat 32 (i 1).val
  let c512_i32_0 : BitVec 32 := 512#32
  let v1 : BitVec 32 := Scalar.muli arg1 c512_i32_0
  v1
def k1_off2 (i : grid1.Coords) : Fin 2 → Nat :=
  let arg1 : BitVec 32 := BitVec.ofNat 32 (i 1).val
  let c512_i32_0 : BitVec 32 := 512#32
  let v1 : BitVec 32 := Scalar.muli arg1 c512_i32_0
  let v6 : BitVec 32 := v1
  let v7 : Index := Scalar.indexCast v6
  let c0_1 : Index := 0#32
  ![v7.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S8192x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![8, 4], ![false, false]⟩

def k5_cond2 (i : grid5.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

class Facts₀ : Prop where
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reducesTo_S8192x512_S8192_d1 : S8192x512.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  shapeCasts_S512x512_S512x512 : S512x512.ShapeCasts S512x512
  transposes_S512x512_p1_0_S512x512 : S512x512.Transposes [1, 0] S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  bcast_S_S262144 : S_.BroadcastsInDim S262144 (![] : Fin 0 → Fin S262144.rank)
  bcast_S_S67108864 : S_.BroadcastsInDim S67108864 (![] : Fin 0 → Fin S67108864.rank)
  bcast_S262144_S262144x1_0 : S262144.BroadcastsInDim S262144x1 (![0] : Fin 1 → Fin S262144x1.rank)
  shapeCasts_S67108864_S8192x8192 : S67108864.ShapeCasts S8192x8192
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S256_S1x256 : S256.ShapeCasts S1x256
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  dot_S1024x512_S512x512_S1024x512_1_0_0_1_n_n_wf : DotDims.WF S1024x512 S512x512 S1024x512 [1] [0] [0] [1] [] []
  dot_S512x512_S512x512_S512x512_1_0_0_1_n_n_wf : DotDims.WF S512x512 S512x512 S512x512 [1] [0] [0] [1] [] []
  scatter_S67108864_S262144x1_S262144_n_0_0_1_wf : ScatterDims.WF S67108864 S262144x1 S262144 [] [0] [0] 1
  dot_S1024x2048_S2048x512_S1024x512_1_0_0_1_n_n_wf : DotDims.WF S1024x2048 S2048x512 S1024x512 [1] [0] [0] [1] [] []
  dot_S1024x512_S512x256_S1024x256_1_0_0_1_n_n_wf : DotDims.WF S1024x512 S512x256 S1024x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x512.size a ≤ S8192x512.size a
  k1_mult2_dvd : ∀ i : grid1.Coords, 512 ∣ (k1_mult2 i).toNat
  k1_off2_inb : ∀ i : grid1.Coords, ∀ a, (k1_off2 i) a + S512x512.size a ≤ S8192x512.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x512.size a ≤ S8192x512.size a
  hwx1_0 : ∀ i : grid1.Coords, EltTy.bits .bf16 = 32 ∨ (Rect.block (s := S8192x512) S8192x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S8192x1.size a
  hwx1_1 : ∀ i : grid1.Coords, EltTy.bits .f32 = 32 ∨ (Rect.block (s := S8192x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x8192.size a
  hwx1_2 : ∀ i : grid1.Coords, EltTy.bits .f32 = 32 ∨ (Rect.block (s := S1x8192) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x8192.size a
  hwx1_3 : ∀ i : grid1.Coords, EltTy.bits .f32 = 32 ∨ (Rect.block (s := S8192x8192) S512x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x512.size a
  hwx2_3 : ∀ i : grid2.Coords, EltTy.bits .f32 = 32 ∨ (Rect.block (s := S8192x512) S1024x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .bf16 = 32 ∨ (Rect.block (s := S8192x8192) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S8192x512.size a
  hwx3_1 : ∀ i : grid3.Coords, EltTy.bits .bf16 = 32 ∨ (Rect.block (s := S8192x512) S2048x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S8192x512.size a
  hwx3_2 : ∀ i : grid3.Coords, EltTy.bits .f32 = 32 ∨ (Rect.block (s := S8192x512) S1024x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x512.size a
  hwx4_0 : ∀ i : grid4.Coords, EltTy.bits .f32 = 32 ∨ (Rect.block (s := S8192x512) S1024x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x256.size a ≤ S8192x256.size a
  hwx4_3 : ∀ i : grid4.Coords, EltTy.bits .f32 = 32 ∨ (Rect.block (s := S8192x256) S1024x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S8192x8192.size a
  hwx5_0 : ∀ i : grid5.Coords, EltTy.bits .bf16 = 32 ∨ (Rect.block (s := S8192x8192) S1024x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x256.size a ≤ S8192x256.size a
  hwx5_1 : ∀ i : grid5.Coords, EltTy.bits .bf16 = 32 ∨ (Rect.block (s := S8192x256) S2048x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x256.size a ≤ S8192x256.size a
  hwx5_2 : ∀ i : grid5.Coords, EltTy.bits .f32 = 32 ∨ (Rect.block (s := S8192x256) S1024x256.size (cc5_transform_2 i) (hinb5_2 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def scatter_S67108864_S262144x1_S262144_n_0_0_1 : ScatterDims S67108864 S262144x1 S262144 where
  updateWindowDims := []
  insertedWindowDims := [0]
  scatterDimsToOperandDims := [0]
  indexVectorDim := 1
  wf := scatter_S67108864_S262144x1_S262144_n_0_0_1_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S8192x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v18) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1024x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v20) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v22) S1024x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v18) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S2048x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v24) S1024x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S262144 : Shape := ⟨1, ![262144]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x512 : Shape := ⟨2, ![1, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S262144x1 : Shape := ⟨2, ![262144, 1]⟩
abbrev S262144x512 : Shape := ⟨2, ![262144, 512]⟩
abbrev S8192x256 : Shape := ⟨2, ![8192, 256]⟩
abbrev S1x256 : Shape := ⟨2, ![1, 256]⟩
abbrev S262144x256 : Shape := ⟨2, ![262144, 256]⟩

abbrev nBuf : Space → Nat
  | .hbm => 80
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S8192x512, .f32⟩
  | .hbm, ⟨11, _⟩ => ⟨S1x512, .f32⟩
  | .hbm, ⟨12, _⟩ => ⟨S8192x512, .f32⟩
  | .hbm, ⟨13, _⟩ => ⟨S8192x512, .f32⟩
  | .hbm, ⟨14, _⟩ => ⟨S512x8192, .f32⟩
  | .hbm, ⟨15, _⟩ => ⟨S8192x8192, .f32⟩
  | .hbm, ⟨16, _⟩ => ⟨S8192x512, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x1, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S262144x1, .f32⟩
  | .hbm, ⟨42, _⟩ => ⟨S_, .i32⟩
  | .hbm, ⟨43, _⟩ => ⟨S262144, .i32⟩
  | .hbm, ⟨44, _⟩ => ⟨S262144, .i1⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S262144, .i32⟩
  | .hbm, ⟨49, _⟩ => ⟨S262144x1, .i32⟩
  | .hbm, ⟨50, _⟩ => ⟨S262144x512, .f32⟩
  | .hbm, ⟨51, _⟩ => ⟨S262144x512, .f32⟩
  | .hbm, ⟨52, _⟩ => ⟨S262144x512, .f32⟩
  | .hbm, ⟨53, _⟩ => ⟨S_, .f32⟩
  | .hbm, ⟨54, _⟩ => ⟨S8192x512, .f32⟩
  | .hbm, ⟨55, _⟩ => ⟨S262144x1, .i32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S8192x256, .f32⟩
  | .hbm, ⟨61, _⟩ => ⟨S1x256, .f32⟩
  | .hbm, ⟨62, _⟩ => ⟨S8192x256, .f32⟩
  | .hbm, ⟨63, _⟩ => ⟨S8192x256, .f32⟩
  | .hbm, ⟨64, _⟩ => ⟨S262144x1, .f32⟩
  | .hbm, ⟨65, _⟩ => ⟨S_, .i32⟩
  | .hbm, ⟨66, _⟩ => ⟨S262144, .i32⟩
  | .hbm, ⟨67, _⟩ => ⟨S262144, .i1⟩
  | .hbm, ⟨68, _⟩ => ⟨S_, .i32⟩
  | .hbm, ⟨69, _⟩ => ⟨S262144, .i32⟩
  | .hbm, ⟨70, _⟩ => ⟨S262144, .i32⟩
  | .hbm, ⟨71, _⟩ => ⟨S262144, .i32⟩
  | .hbm, ⟨72, _⟩ => ⟨S262144x1, .i32⟩
  | .hbm, ⟨73, _⟩ => ⟨S262144x256, .f32⟩
  | .hbm, ⟨74, _⟩ => ⟨S262144x256, .f32⟩
  | .hbm, ⟨75, _⟩ => ⟨S262144x256, .f32⟩
  | .hbm, ⟨76, _⟩ => ⟨S_, .f32⟩
  | .hbm, ⟨77, _⟩ => ⟨S8192x256, .f32⟩
  | .hbm, ⟨78, _⟩ => ⟨S262144x1, .i32⟩
  | .hbm, ⟨79, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_1 : Ref sig .tc := ⟨.hbm, 42, rfl⟩
abbrev main_v29 : Ref sig .tc := ⟨.hbm, 43, rfl⟩
abbrev main_v30 : Ref sig .tc := ⟨.hbm, 44, rfl⟩
abbrev main_c_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call0_cst : Ref sig .tc := ⟨.hbm, 57, rfl⟩
abbrev main_call0_v0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_4 : Ref sig .tc := ⟨.hbm, 65, rfl⟩
abbrev main_v47 : Ref sig .tc := ⟨.hbm, 66, rfl⟩
abbrev main_v48 : Ref sig .tc := ⟨.hbm, 67, rfl⟩
abbrev main_c_5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S8192x512_S512x8192_1_0 : S8192x512.Transposes [1, 0] S512x8192
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x512_0_1 : S262144x1.BroadcastsInDim S262144x512 (![0, 1] : Fin 2 → Fin S262144x512.rank)
  bcast_S_S8192x512 : S_.BroadcastsInDim S8192x512 (![] : Fin 0 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  dot_S8192x512_S512x512_S8192x512_1_0_0_1_n_n_wf : DotDims.WF S8192x512 S512x512 S8192x512 [1] [0] [0] [1] [] []
  dot_S8192x512_S512x8192_S8192x8192_1_0_0_1_n_n_wf : DotDims.WF S8192x512 S512x8192 S8192x8192 [1] [0] [0] [1] [] []
  gather_S8192x512_S262144x1_S262144x512_1_0_n_n_0_1_1512_wf : GatherDims.WF S8192x512 S262144x1 S262144x512 [1] [0] [] [0] [] 1 ![1, 512]
  scatter_S8192x512_S262144x1_S262144x512_1_0_0_1_wf : ScatterDims.WF S8192x512 S262144x1 S262144x512 [1] [0] [0] 1
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x512_S262144x1_S262144x512_1_0_n_n_0_1_1512 : GatherDims S8192x512 S262144x1 S262144x512 where
  offsetDims := [1]
  collapsedSliceDims := [0]
  operandBatchingDims := []
  startIndicesBatchingDims := []
  startIndexMap := [0]
  indexVectorDim := 1
  sliceSizes := ![1, 512]
  wf := gather_S8192x512_S262144x1_S262144x512_1_0_n_n_0_1_1512_wf
def scatter_S8192x512_S262144x1_S262144x512_1_0_0_1 : ScatterDims S8192x512 S262144x1 S262144x512 where
  updateWindowDims := [1]
  insertedWindowDims := [0]
  scatterDimsToOperandDims := [0]
  indexVectorDim := 1
  wf := scatter_S8192x512_S262144x1_S262144x512_1_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf

class Facts : Prop extends Facts₀ where

variable [Facts]
-- ==== Proof.KI.Reg0.lean ====
import proofs.«431399_j28879360098971_2_alg».proof.Proof.Gen.KernelIdeal.Launch
import proofs.«431399_j28879360098971_2_alg».proof.Proof.Gen.KernelIdeal.Skeleton
import proofs.«431399_j28879360098971_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x512 := Rect.unit (s := S1024x512) ![0, 0] S1024x512.size inb_S1024x512_S1024x512_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

theorem zero_off0 : (![0, 0] : Fin 2 → Nat) = fun _ => 0 := by funext a; fin_cases a <;> rfl

def out0_3 (x0 : Vec F S1024x512 .f32) (x1 : Vec F S512x512 .f32) (x2 : Vec F S1x512 .f32) : Vec F S1024x512 .f32 :=
  View.canon [⟨r0_3, k0_pay1 (View.ld x0 r0_0) (View.ld x1 r0_1) (View.ld x2 r0_2)⟩]

theorem cover0_3 (p0 : Vec F S1024x512 .f32) (y : S1024x512.Idx) :
    ∃ pc ∈ ([⟨r0_3, p0⟩] : List (View.Piece (Elt F) S1024x512 .f32)), y ∈ pc.1.set :=
  ⟨_, List.mem_singleton_self _, View.mem_set_unit_zero zero_off0 inb_S1024x512_S1024x512_0_0 y⟩

theorem out0_3_eq (x0 : Vec F S1024x512 .f32) (x1 : Vec F S512x512 .f32) (x2 : Vec F S1x512 .f32) :
    out0_3 x0 x1 x2 = k0_pay1 x0 x1 x2 := by
  unfold out0_3
  rw [View.canon_unit_zero zero_off0]
  simp only [View.ld_unit_zero (S := S1024x512) zero_off0, View.ld_unit_zero (S := S512x512) zero_off0, View.ld_unit_zero (S := S1x512) zero_off0]

set_option maxHeartbeats 1000000 in

theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1024x512 .f32) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  q _ := fullShare
  owed _ := 0
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3_out (c : Dev nD) (t : Fin cfg0.N) :
    (dat0 V c).after 3 t = out0_3 (iblk0 V c 0 t) (iblk0 V c 1 t) (iblk0 V c 2 t) := by dsimp only [dat0]

theorem after0_3 (c : Dev nD) (t : Fin cfg0.N) :
    (dat0 V c).after 3 t = k0_pay1 (iblk0 V c 0 t) (iblk0 V c 1 t) (iblk0 V c 2 t) := by
  rw [after0_3_out]; exact out0_3_eq _ _ _

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3_out]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«431399_j28879360098971_2_alg».proof.Proof.Gen.KernelIdeal.Launch
import proofs.«431399_j28879360098971_2_alg».proof.Proof.Gen.KernelIdeal.Skeleton
import proofs.«431399_j28879360098971_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0a (i : grid1.Coords) : Rect S8192x512 := Rect.unit (s := S8192x512) (k1_off1 i) S512x512.size (k1_off1_inb i)

abbrev r1_0b (i : grid1.Coords) : Rect S8192x512 := Rect.unit (s := S8192x512) (k1_off2 i) S512x512.size (k1_off2_inb i)
abbrev r1_1 : Rect S512x1 := Rect.unit (s := S512x1) ![0, 0] S512x1.size inb_S512x1_S512x1_0_0
abbrev r1_2 : Rect S1x512 := Rect.unit (s := S1x512) ![0, 0] S1x512.size inb_S1x512_S1x512_0_0
abbrev r1_3 : Rect S512x512 := Rect.unit (s := S512x512) ![0, 0] S512x512.size inb_S512x512_S512x512_0_0

def out1_3 (i : grid1.Coords) (x0 : Vec F S8192x512 .bf16) (x1 : Vec F S512x1 .f32) (x2 : Vec F S1x512 .f32) : Vec F S512x512 .f32 :=
  View.canon [⟨r1_3, k1_pay1 i (View.ld x0 (r1_0a i)) (View.ld x0 (r1_0b i)) (View.ld x1 r1_1) (View.ld x2 r1_2)⟩]

theorem cover1_3 (p0 : Vec F S512x512 .f32) (y : S512x512.Idx) :
    ∃ pc ∈ ([⟨r1_3, p0⟩] : List (View.Piece (Elt F) S512x512 .f32)), y ∈ pc.1.set :=
  View.cover_of_tiled [⟨r1_3, p0⟩] S512x512.size (by rfl) y

set_option maxHeartbeats 1000000 in

theorem sound_kernel1 (c : Dev nD) (E : Set ℕ) (i : grid1.Coords)
    (arg0 : Memref sig .tc .vmem S8192x512 .bf16) (harg0 : arg0.IsWhole) (arg1 : Memref sig .tc .vmem S512x1 .f32) (harg1 : arg1.IsWhole)
    (arg2 : Memref sig .tc .vmem S1x512 .f32) (harg2 : arg2.IsWhole) (arg3 : Memref sig .tc .vmem S512x512 .f32) (harg3 : arg3.IsWhole)
    (x0 : Vec F S8192x512 .bf16) (x1 : Vec F S512x1 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 i x0 x1 x2)) -∗ K ⟨⟩))
      ⊢ wp frame (wpE (defs₀ (F := F)) Variants.none c none) E (cc1__similarity_kernel i arg0 harg0 arg1 harg1 arg2 harg2 arg3 harg3) K := by
  simp only [cc1__similarity_kernel_eq_skeleton]; unfold cc1__similarity_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) :
    (dat1 V c).after 3 t = out1_3 (grid1.coords t) (iblk1 V c 0 t) (iblk1 V c 1 t) (iblk1 V c 2 t) := by dsimp only [dat1]

theorem after1_3 (c : Dev nD) (t : Fin cfg1.N) :
    (dat1 V c).after 3 t = k1_pay1 (grid1.coords t)
      (View.ld (iblk1 V c 0 t) (Rect.unit (s := S8192x512) (k1_off1 (grid1.coords t)) S512x512.size (k1_off1_inb (grid1.coords t))))
      (View.ld (iblk1 V c 0 t) (Rect.unit (s := S8192x512) (k1_off2 (grid1.coords t)) S512x512.size (k1_off2_inb (grid1.coords t))))
      (iblk1 V c 1 t) (iblk1 V c 2 t) := by
  rw [after1_3']; unfold out1_3
  rw [View.canon_unit_zero (S := S512x512) (funext fun a => by fin_cases a <;> rfl) inb_S512x512_S512x512_0_0,
    View.ld_unit_zero (S := S512x1) (funext fun a => by fin_cases a <;> rfl) inb_S512x1_S512x1_0_0,
    View.ld_unit_zero (S := S1x512) (funext fun a => by fin_cases a <;> rfl) inb_S1x512_S1x512_0_0]
  rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3']
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«431399_j28879360098971_2_alg».proof.Proof.Gen.KernelIdeal.Launch
import proofs.«431399_j28879360098971_2_alg».proof.Proof.Gen.KernelIdeal.Skeleton
import proofs.«431399_j28879360098971_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x512 := Rect.unit (s := S1024x512) ![0, 0] S1024x512.size inb_S1024x512_S1024x512_0_0
abbrev r2_1 : Rect S512x512 := Rect.unit (s := S512x512) ![0, 0] S512x512.size inb_S512x512_S512x512_0_0
abbrev r2_2 : Rect S1x512 := Rect.unit (s := S1x512) ![0, 0] S1x512.size inb_S1x512_S1x512_0_0
abbrev r2_3 : Rect S1024x512 := Rect.unit (s := S1024x512) ![0, 0] S1024x512.size inb_S1024x512_S1024x512_0_0

theorem zero_off2 : (![0, 0] : Fin 2 → Nat) = fun _ => 0 := by funext a; fin_cases a <;> rfl

def out2_3 (x0 : Vec F S1024x512 .f32) (x1 : Vec F S512x512 .f32) (x2 : Vec F S1x512 .f32) : Vec F S1024x512 .f32 :=
  View.canon [⟨r2_3, k2_pay1 (View.ld x0 r2_0) (View.ld x1 r2_1) (View.ld x2 r2_2)⟩]

theorem cover2_3 (p0 : Vec F S1024x512 .f32) (y : S1024x512.Idx) :
    ∃ pc ∈ ([⟨r2_3, p0⟩] : List (View.Piece (Elt F) S1024x512 .f32)), y ∈ pc.1.set :=
  ⟨_, List.mem_singleton_self _, View.mem_set_unit_zero zero_off2 inb_S1024x512_S1024x512_0_0 y⟩

theorem out2_3_eq (x0 : Vec F S1024x512 .f32) (x1 : Vec F S512x512 .f32) (x2 : Vec F S1x512 .f32) :
    out2_3 x0 x1 x2 = k2_pay1 x0 x1 x2 := by
  unfold out2_3
  rw [View.canon_unit_zero zero_off2]
  simp only [View.ld_unit_zero (S := S1024x512) zero_off2, View.ld_unit_zero (S := S512x512) zero_off2, View.ld_unit_zero (S := S1x512) zero_off2]

set_option maxHeartbeats 1000000 in

theorem sound_kernel2 (c : Dev nD) (E : Set ℕ) (i : grid2.Coords)
    (arg1 : Memref sig .tc .vmem S1024x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1024x512 .f32) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  q _ := fullShare
  owed _ := 0
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3_out (c : Dev nD) (t : Fin cfg2.N) :
    (dat2 V c).after 3 t = out2_3 (iblk2 V c 0 t) (iblk2 V c 1 t) (iblk2 V c 2 t) := by dsimp only [dat2]

theorem after2_3 (c : Dev nD) (t : Fin cfg2.N) :
    (dat2 V c).after 3 t = k2_pay1 (iblk2 V c 0 t) (iblk2 V c 1 t) (iblk2 V c 2 t) := by
  rw [after2_3_out]; exact out2_3_eq _ _ _

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3_out]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«431399_j28879360098971_2_alg».proof.Proof.Gen.KernelIdeal.Launch
import proofs.«431399_j28879360098971_2_alg».proof.Proof.Gen.KernelIdeal.Skeleton
import proofs.«431399_j28879360098971_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

def acc3 (c : Dev nD) : ℕ → Vec F S1024x512 .f32
  | 0 => if h : 0 < cfg3.N then k3_pay2 (k3_pay1 (F := F)) (iblk3 V c 0 ⟨0, h⟩) (iblk3 V c 1 ⟨0, h⟩) else k3_pay1 (F := F)
  | n + 1 => if h : n + 1 < cfg3.N then
      k3_pay2 (if (n + 1) % 4 = 0 then k3_pay1 (F := F) else acc3 c n) (iblk3 V c 0 ⟨n + 1, h⟩) (iblk3 V c 1 ⟨n + 1, h⟩)
    else k3_pay1 (F := F)

theorem acc3_eq (c : Dev nD) (t : Fin cfg3.N) :
    acc3 V c t.val = k3_pay2 (if t.val % 4 = 0 then k3_pay1 (F := F) else acc3 V c (t.val - 1)) (iblk3 V c 0 t) (iblk3 V c 1 t) := by
  obtain ⟨n, hn⟩ := t
  cases n with
  | zero =>
    have e : acc3 V c 0 = k3_pay2 (k3_pay1 (F := F)) (iblk3 V c 0 ⟨0, hn⟩) (iblk3 V c 1 ⟨0, hn⟩) := by
      rw [acc3, dif_pos hn]
    exact e.trans (by rw [if_pos (Nat.zero_mod 4)])
  | succ n =>
    have e : acc3 V c (n + 1) = k3_pay2 (if (n + 1) % 4 = 0 then k3_pay1 (F := F) else acc3 V c n) (iblk3 V c 0 ⟨n + 1, hn⟩) (iblk3 V c 1 ⟨n + 1, hn⟩) := by
      rw [acc3, dif_pos hn]
    exact e

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬ t.val % 4 = 3 → cfg3.idle 2 (grid3.coords t) = true := by decide +kernel
theorem noFlush3_2 : ∀ t : Fin cfg3.N, ¬ t.val % 4 = 3 → (cfg3.win 2).flush t = false := by decide +kernel
theorem liveAt3_2 : ∀ t : Fin cfg3.N, t.val % 4 = 3 → cfg3.idle 2 (grid3.coords t) = false := by decide +kernel

theorem off00_3 : (![0, 0] : Fin 2 → ℕ) = fun _ => 0 := by
  funext a; match a with | ⟨0, _⟩ => rfl | ⟨1, _⟩ => rfl

theorem readAt_unit_zero3 {κ : Kind} {sp : Space} {S : Shape} {e : EltTy} (v : View sig κ sp S e) {off : Fin S.rank → ℕ}
    (h : off = fun _ => 0) (inb : ∀ a, off a + S.size a ≤ S.size a) (f : v.ty.Contents (Elt F)) :
    View.readAt (Elt F) v (Rect.unit off S.size inb).toLoadRect f = View.read (Elt F) v f := by
  subst h; funext x
  show View.read (Elt F) v f ((Rect.whole S).emb x) = View.read (Elt F) v f x
  rw [Rect.emb_whole_apply]

theorem read_writes_cons_unit_zero3 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rwa [Rect.emb_whole_apply] at e

set_option maxHeartbeats 1000000 in

theorem run3_A (c : Dev nD) (i : grid3.Coords) (arg2 : Memref sig .tc .vmem S1024x2048 .bf16) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole)
    (hc0 : cond3_0 i) (hc1 : ¬cond3_1 i)
    (x0 : Vec F S1024x2048 .bf16) (x1 : Vec F S2048x512 .bf16) (xi : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k3_pay2 (k3_pay1 (F := F)) x0 x1)) -∗ K ⟨⟩))
      ⊢ wp frame (wpE (defs₀ (F := F)) Variants.none c none) E (cc3__dense_adj_matmul_kernel i arg2 harg2 arg3 harg3 arg4 harg4 arg5 harg5) K := by
  simp only [cc3__dense_adj_matmul_kernel_eq_skeleton]; unfold cc3__dense_adj_matmul_kernel_skel
  unfold owns
  iintro ⟨⟨%f0, %hf0, H0⟩, ⟨%f1, %hf1, H1⟩, ⟨%fi, %hfi, Hi⟩, ⟨%ds, %fs, -, HS⟩, Hk⟩
  subst hf0; subst hf1; subst hfi
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists fi; isplitr; · ipureintro; rfl
    iexact Hi
  iexists _; isplitr
  swap; · iexact HS
  ipureintro
  sl_unfold_run_names
  rw [View.readCov_cons_toLoadRect, readAt_unit_zero3 arg2.view off00_3, readAt_unit_zero3 arg3.view off00_3]
  exact read_writes_cons_unit_zero3 _ _ off00_3 _ _ _

set_option maxHeartbeats 1000000 in

theorem run3_B (c : Dev nD) (i : grid3.Coords) (arg2 : Memref sig .tc .vmem S1024x2048 .bf16) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole)
    (hc0 : ¬cond3_0 i) (hc1 : ¬cond3_1 i)
    (x0 : Vec F S1024x2048 .bf16) (x1 : Vec F S2048x512 .bf16) (xi : Vec F S1024x512 .f32) (xs : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k3_pay2 xs x0 x1)) -∗ K ⟨⟩))
      ⊢ wp frame (wpE (defs₀ (F := F)) Variants.none c none) E (cc3__dense_adj_matmul_kernel i arg2 harg2 arg3 harg3 arg4 harg4 arg5 harg5) K := by
  simp only [cc3__dense_adj_matmul_kernel_eq_skeleton]; unfold cc3__dense_adj_matmul_kernel_skel
  unfold owns
  iintro ⟨⟨%f0, %hf0, H0⟩, ⟨%f1, %hf1, H1⟩, ⟨%fi, %hfi, Hi⟩, ⟨%fs, %hfs, HS⟩, Hk⟩
  subst hf0; subst hf1; subst hfi; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists fi; isplitr; · ipureintro; rfl
    iexact Hi
  iexists _; isplitr
  swap; · iexact HS
  ipureintro
  sl_unfold_run_names
  rw [readAt_unit_zero3 arg5.view off00_3, readAt_unit_zero3 arg2.view off00_3, readAt_unit_zero3 arg3.view off00_3]
  exact read_writes_cons_unit_zero3 _ _ off00_3 _ _ _

set_option maxHeartbeats 1000000 in

theorem run3_C (c : Dev nD) (i : grid3.Coords) (arg2 : Memref sig .tc .vmem S1024x2048 .bf16) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole)
    (hc0 : ¬cond3_0 i) (hc1 : cond3_1 i)
    (x0 : Vec F S1024x2048 .bf16) (x1 : Vec F S2048x512 .bf16) (xs : Vec F S1024x512 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k3_pay2 xs x0 x1)
            ∗ owns (c : Thread nD τ) arg5 fullShare (k3_pay2 xs x0 x1)) -∗ K ⟨⟩))
      ⊢ wp frame (wpE (defs₀ (F := F)) Variants.none c none) E (cc3__dense_adj_matmul_kernel i arg2 harg2 arg3 harg3 arg4 harg4 arg5 harg5) K := by
  simp only [cc3__dense_adj_matmul_kernel_eq_skeleton]; unfold cc3__dense_adj_matmul_kernel_skel
  unfold owns
  iintro ⟨⟨%f0, %hf0, H0⟩, ⟨%f1, %hf1, H1⟩, ⟨%di, %fi, -, Hi⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists _; isplitr
    swap; · iexact Hi
    ipureintro
    sl_unfold_run_names
    rw [View.readCov_cons_toLoadRect, readAt_unit_zero3 arg5.view off00_3, readAt_unit_zero3 arg2.view off00_3, readAt_unit_zero3 arg3.view off00_3]
    exact read_writes_cons_unit_zero3 _ _ off00_3 _ _ _
  iexists _; isplitr
  swap; · iexact HS
  ipureintro
  sl_unfold_run_names
  rw [readAt_unit_zero3 arg5.view off00_3, readAt_unit_zero3 arg2.view off00_3, readAt_unit_zero3 arg3.view off00_3]
  exact read_writes_cons_unit_zero3 _ _ off00_3 _ _ _

abbrev scM3 : Memref sig .tc .vmem S1024x512 .f32 := Memref.whole cc3_scratch0

def Phi3 (c : Dev nD) : ℕ → sProp 𝕄
  | 0 => iprop((∃ r, prngReg c r) ∗ Pipeline.scopedRest (Ix := Unit) (Name := ℕ) (U := UR sig nD τ) (Lvl := ℕ) spec3 c)
  | n + 1 => iprop((∃ r, prngReg c r) ∗ owns (c : Thread nD τ) scM3 fullShare (acc3 V c n)
      ∗ Pipeline.scopedRestBut (Ix := Unit) (Name := ℕ) (U := UR sig nD τ) (Lvl := ℕ) spec3 c [cc3_scratch0])

theorem Phi3_succ (c : Dev nD) (n : ℕ) :
    Phi3 V c (n + 1) = iprop((∃ r, prngReg c r) ∗ owns (c : Thread nD τ) scM3 fullShare (acc3 V c n)
      ∗ Pipeline.scopedRestBut (Ix := Unit) (Name := ℕ) (U := UR sig nD τ) (Lvl := ℕ) spec3 c [cc3_scratch0]) := rfl

theorem Phi3_pos (c : Dev nD) (n : ℕ) (hz : n ≠ 0) :
    Phi3 V c n = iprop((∃ r, prngReg c r) ∗ owns (c : Thread nD τ) scM3 fullShare (acc3 V c (n - 1))
      ∗ Pipeline.scopedRestBut (Ix := Unit) (Name := ℕ) (U := UR sig nD τ) (Lvl := ℕ) spec3 c [cc3_scratch0]) := by
  cases n with
  | zero => exact absurd rfl hz
  | succ n => rfl

theorem scopedRest3_owns (c : Dev nD) :
    (iprop((∃ r, prngReg c r) ∗ Pipeline.scopedRest (Ix := Unit) (Name := ℕ) (U := UR sig nD τ) (Lvl := ℕ) spec3 c) : sProp 𝕄)
      = iprop((∃ r, prngReg c r) ∗ (∃ d, owns (c : Thread nD τ) scM3 fullShare d)
          ∗ Pipeline.scopedRestBut (Ix := Unit) (Name := ℕ) (U := UR sig nD τ) (Lvl := ℕ) spec3 c [cc3_scratch0]) := by
  rw [scopedRest3_split]; simp only [scM3, owns_whole]; try rfl

theorem Phi3_some (c : Dev nD) (n : ℕ) :
    Phi3 V c n ⊢ (iprop((∃ r, prngReg c r) ∗ (∃ d, owns (c : Thread nD τ) scM3 fullShare d)
      ∗ Pipeline.scopedRestBut (Ix := Unit) (Name := ℕ) (U := UR sig nD τ) (Lvl := ℕ) spec3 c [cc3_scratch0]) : sProp 𝕄) := by
  cases n with
  | zero =>
    rw [show Phi3 V c 0 = iprop((∃ r, prngReg c r) ∗ Pipeline.scopedRest (Ix := Unit) (Name := ℕ) (U := UR sig nD τ) (Lvl := ℕ) spec3 c) from rfl,
      scopedRest3_owns]
  | succ n =>
    rw [Phi3_succ]
    iintro ⟨Hg, HS, HR⟩
    isplitl [Hg]; · iexact Hg
    isplitl [HS]; · iexists _; iexact HS
    iexact HR

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) (ht : t.val % 4 = 3) : (dat3 V c).after 2 t = acc3 V c t.val := by dsimp only [dat3]

theorem Phi3_at (c : Dev nD) (t : Fin (cfg3.N + 1)) : (dat3 V c).Φ t = Phi3 V c t.val := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

theorem Phi3_in (c : Dev nD) : (iprop((∃ r, prngReg c r) ∗ Pipeline.scopedRest (Ix := Unit) (Name := ℕ) (U := UR sig nD τ) (Lvl := ℕ) spec3 c) : sProp 𝕄) ⊢ (dat3 V c).Φ 0 := by
  rw [Phi3_at, Fin.val_zero]
  exact Entails.refl _

theorem Phi3_out (c : Dev nD) : (dat3 V c).Φ (Fin.last cfg3.N) ⊢ (iprop((∃ r, prngReg c r) ∗ Pipeline.scopedRest (Ix := Unit) (Name := ℕ) (U := UR sig nD τ) (Lvl := ℕ) spec3 c) : sProp 𝕄) := by
  rw [Phi3_at, scopedRest3_owns]
  exact Phi3_some V c _

abbrev ms3_0 (t : Fin cfg3.N) : Memref sig .tc .vmem S1024x2048 .bf16 := win3_0.stage (cfg3.slots t 0)
abbrev ms3_1 (t : Fin cfg3.N) : Memref sig .tc .vmem S2048x512 .bf16 := win3_1.stage (cfg3.slots t 1)
abbrev ms3_2 (t : Fin cfg3.N) : Memref sig .tc .vmem S1024x512 .f32 := win3_2.stage (cfg3.slots t 2)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) from rfl, Phi3_succ]
  rw [show (dat3 V c).Φ t.castSucc = Phi3 V c t.val from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h3 : t.val % 4 = 3
  · have h0 : ¬ t.val % 4 = 0 := by omega
    have hz : t.val ≠ 0 := by omega
    rw [show (dat3 V c).leavesExact 2 t = owns (c : Thread nD τ) (ms3_2 t) fullShare ((dat3 V c).after 2 t) from by
      unfold Dat.leavesExact; rw [liveAt3_2 t h3], after3_2 V c t h3]
    rw [acc3_eq V c t, if_neg h0, Phi3_pos V c _ hz]
    iintro ⟨⟨Hg, HS, HR⟩, Ho, ⟨%d0, H0⟩, ⟨%d1, H1⟩, ⟨%d2, H2⟩⟩
    iapply (run3_C c (grid3.coords t) _ _ _ _ _ _ _ _ (fun h => h0 ((hcond3_0 t).mp h)) ((hcond3_1 t).mpr h3) (iblk3 V c 0 t) (iblk3 V c 1 t) (acc3 V c (t.val - 1)) Set.univ _)
    isplitl [H0]; · iexact H0
    isplitl [H1]; · iexact H1
    isplitl [H2]; · iexists _; iexact H2
    isplitl [HS]; · iexact HS
    iintro ⟨H0, H1, H2, HS⟩
    isplitl [Hg HS HR]
    · isplitl [Hg]; · iexact Hg
      isplitl [HS]; · iexact HS
      iexact HR
    isplitl [Ho]; · iexact Ho
    isplitl [H0]; · iexact H0
    isplitl [H1]; · iexact H1
    iexact H2
  · rw [Dat.leavesExact_idle (dat3 V c) 2 t (idleAt3_2 t h3) (noFlush3_2 t h3)]
    rw [acc3_eq V c t]
    by_cases h0 : t.val % 4 = 0
    · rw [if_pos h0]
      refine (sep_mono_left (Phi3_some V c t.val)).trans ?_
      iintro ⟨⟨Hg, ⟨%ds, HS⟩, HR⟩, Ho, ⟨%d0, H0⟩, ⟨%d1, H1⟩, ⟨%d2, H2⟩⟩
      iapply (run3_A c (grid3.coords t) _ _ _ _ _ _ _ _ ((hcond3_0 t).mpr h0) (fun h => h3 ((hcond3_1 t).mp h)) (iblk3 V c 0 t) (iblk3 V c 1 t) _ Set.univ _)
      isplitl [H0]; · iexact H0
      isplitl [H1]; · iexact H1
      isplitl [H2]; · iexact H2
      isplitl [HS]; · iexists _; iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexists _; iexact H2
    · have hz : t.val ≠ 0 := fun h => h0 (by rw [h])
      rw [if_neg h0, Phi3_pos V c _ hz]
      iintro ⟨⟨Hg, HS, HR⟩, Ho, ⟨%d0, H0⟩, ⟨%d1, H1⟩, ⟨%d2, H2⟩⟩
      iapply (run3_B c (grid3.coords t) _ _ _ _ _ _ _ _ (fun h => h0 ((hcond3_0 t).mp h)) (fun h => h3 ((hcond3_1 t).mp h)) (iblk3 V c 0 t) (iblk3 V c 1 t) _ (acc3 V c (t.val - 1)) Set.univ _)
      isplitl [H0]; · iexact H0
      isplitl [H1]; · iexact H1
      isplitl [H2]; · iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«431399_j28879360098971_2_alg».proof.Proof.Gen.KernelIdeal.Launch
import proofs.«431399_j28879360098971_2_alg».proof.Proof.Gen.KernelIdeal.Skeleton
import proofs.«431399_j28879360098971_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S1024x512 := Rect.unit (s := S1024x512) ![0, 0] S1024x512.size inb_S1024x512_S1024x512_0_0
abbrev r4_1 : Rect S512x256 := Rect.unit (s := S512x256) ![0, 0] S512x256.size inb_S512x256_S512x256_0_0
abbrev r4_2 : Rect S1x256 := Rect.unit (s := S1x256) ![0, 0] S1x256.size inb_S1x256_S1x256_0_0
abbrev r4_3 : Rect S1024x256 := Rect.unit (s := S1024x256) ![0, 0] S1024x256.size inb_S1024x256_S1024x256_0_0

theorem zero_off4 : (![0, 0] : Fin 2 → Nat) = fun _ => 0 := by funext a; fin_cases a <;> rfl

def out4_3 (x0 : Vec F S1024x512 .f32) (x1 : Vec F S512x256 .f32) (x2 : Vec F S1x256 .f32) : Vec F S1024x256 .f32 :=
  View.canon [⟨r4_3, k4_pay1 (View.ld x0 r4_0) (View.ld x1 r4_1) (View.ld x2 r4_2)⟩]

theorem cover4_3 (p0 : Vec F S1024x256 .f32) (y : S1024x256.Idx) :
    ∃ pc ∈ ([⟨r4_3, p0⟩] : List (View.Piece (Elt F) S1024x256 .f32)), y ∈ pc.1.set :=
  ⟨_, List.mem_singleton_self _, View.mem_set_unit_zero zero_off4 inb_S1024x256_S1024x256_0_0 y⟩

theorem out4_3_eq (x0 : Vec F S1024x512 .f32) (x1 : Vec F S512x256 .f32) (x2 : Vec F S1x256 .f32) :
    out4_3 x0 x1 x2 = k4_pay1 x0 x1 x2 := by
  unfold out4_3
  rw [View.canon_unit_zero zero_off4]
  simp only [View.ld_unit_zero (S := S1024x512) zero_off4, View.ld_unit_zero (S := S512x256) zero_off4, View.ld_unit_zero (S := S1x256) zero_off4]

set_option maxHeartbeats 1000000 in

theorem sound_kernel4 (c : Dev nD) (E : Set ℕ) (i : grid4.Coords)
    (arg1 : Memref sig .tc .vmem S1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1024x256 .f32) (harg4 : arg4.IsWhole)
    (x0 : Vec F S1024x512 .f32) (x1 : Vec F S512x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  q _ := fullShare
  owed _ := 0
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3_out (c : Dev nD) (t : Fin cfg4.N) :
    (dat4 V c).after 3 t = out4_3 (iblk4 V c 0 t) (iblk4 V c 1 t) (iblk4 V c 2 t) := by dsimp only [dat4]

theorem after4_3 (c : Dev nD) (t : Fin cfg4.N) :
    (dat4 V c).after 3 t = k4_pay1 (iblk4 V c 0 t) (iblk4 V c 1 t) (iblk4 V c 2 t) := by
  rw [after4_3_out]; exact out4_3_eq _ _ _

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3_out]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«431399_j28879360098971_2_alg».proof.Proof.Gen.KernelIdeal.Launch
import proofs.«431399_j28879360098971_2_alg».proof.Proof.Gen.KernelIdeal.Skeleton
import proofs.«431399_j28879360098971_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : ℕ → Vec F S1024x256 .f32
  | 0 => if h : 0 < cfg5.N then k5_pay2 (k5_pay1 (F := F)) (iblk5 V c 0 ⟨0, h⟩) (iblk5 V c 1 ⟨0, h⟩) else k5_pay1 (F := F)
  | n + 1 => if h : n + 1 < cfg5.N then
      k5_pay2 (if (n + 1) % 4 = 0 then k5_pay1 (F := F) else acc5 c n) (iblk5 V c 0 ⟨n + 1, h⟩) (iblk5 V c 1 ⟨n + 1, h⟩)
    else k5_pay1 (F := F)

theorem acc5_eq (c : Dev nD) (t : Fin cfg5.N) :
    acc5 V c t.val = k5_pay2 (if t.val % 4 = 0 then k5_pay1 (F := F) else acc5 V c (t.val - 1)) (iblk5 V c 0 t) (iblk5 V c 1 t) := by
  obtain ⟨n, hn⟩ := t
  cases n with
  | zero =>
    show acc5 V c 0 = k5_pay2 (if 0 % 4 = 0 then k5_pay1 (F := F) else acc5 V c (0 - 1)) _ _
    rw [if_pos (Nat.zero_mod 4), acc5, dif_pos hn]
  | succ n =>
    show acc5 V c (n + 1) = k5_pay2 (if (n + 1) % 4 = 0 then k5_pay1 (F := F) else acc5 V c n) _ _
    rw [acc5, dif_pos hn]

abbrev scM5 : Memref sig .tc .vmem S1024x256 .f32 := Memref.whole cc5_scratch0

def Phi5 (c : Dev nD) : ℕ → sProp 𝕄
  | 0 => iprop((∃ r, prngReg c r) ∗ Pipeline.scopedRest (Ix := Unit) (Name := ℕ) (U := UR sig nD τ) (Lvl := ℕ) spec5 c)
  | n + 1 => iprop((∃ r, prngReg c r) ∗ owns (c : Thread nD τ) scM5 fullShare (acc5 V c n)
      ∗ Pipeline.scopedRestBut (Ix := Unit) (Name := ℕ) (U := UR sig nD τ) (Lvl := ℕ) spec5 c [cc5_scratch0])

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val
  Φ t := Phi5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) (ht : t.val % 4 = 3) : (dat5 V c).after 2 t = acc5 V c t.val := by dsimp only [dat5]

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, ¬ t.val % 4 = 3 → cfg5.idle 2 (grid5.coords t) = true := by decide +kernel
theorem noFlush5_2 : ∀ t : Fin cfg5.N, ¬ t.val % 4 = 3 → (cfg5.win 2).flush t = false := by decide +kernel
theorem liveAt5_2 : ∀ t : Fin cfg5.N, t.val % 4 = 3 → cfg5.idle 2 (grid5.coords t) = false := by decide +kernel

theorem off00_5 : (![0, 0] : Fin 2 → ℕ) = fun _ => 0 := by
  funext a; match a with | ⟨0, _⟩ => rfl | ⟨1, _⟩ => rfl

theorem readAt_unit_zero5 {κ : Kind} {sp : Space} {S : Shape} {e : EltTy} (v : View sig κ sp S e) {off : Fin S.rank → ℕ}
    (h : off = fun _ => 0) (inb : ∀ a, off a + S.size a ≤ S.size a) (f : v.ty.Contents (Elt F)) :
    View.readAt (Elt F) v (Rect.unit off S.size inb).toLoadRect f = View.read (Elt F) v f := by
  subst h; funext x
  show View.read (Elt F) v f ((Rect.whole S).emb x) = View.read (Elt F) v f x
  rw [Rect.emb_whole_apply]

theorem read_writes_cons_unit_zero5 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rwa [Rect.emb_whole_apply] at e

set_option maxHeartbeats 1000000 in

theorem run5_A (c : Dev nD) (i : grid5.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole)
    (hc0 : cond5_0 i) (hc1 : ¬cond5_1 i)
    (x0 : Vec F S1024x2048 .bf16) (x1 : Vec F S2048x256 .bf16) (xi : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k5_pay2 (k5_pay1 (F := F)) x0 x1)) -∗ K ⟨⟩))
      ⊢ wp frame (wpE (defs₀ (F := F)) Variants.none c none) E (cc5__dense_adj_matmul_kernel i arg2 harg2 arg3 harg3 arg4 harg4 arg5 harg5) K := by
  simp only [cc5__dense_adj_matmul_kernel_eq_skeleton]; unfold cc5__dense_adj_matmul_kernel_skel
  unfold owns
  iintro ⟨⟨%f0, %hf0, H0⟩, ⟨%f1, %hf1, H1⟩, ⟨%fi, %hfi, Hi⟩, ⟨%ds, %fs, -, HS⟩, Hk⟩
  subst hf0; subst hf1; subst hfi
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists fi; isplitr; · ipureintro; rfl
    iexact Hi
  iexists _; isplitr
  swap; · iexact HS
  ipureintro
  sl_unfold_run_names
  rw [View.readCov_cons_toLoadRect, readAt_unit_zero5 arg2.view off00_5, readAt_unit_zero5 arg3.view off00_5]
  exact read_writes_cons_unit_zero5 _ _ off00_5 _ _ _

set_option maxHeartbeats 1000000 in

theorem run5_B (c : Dev nD) (i : grid5.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole)
    (hc0 : ¬cond5_0 i) (hc1 : ¬cond5_1 i)
    (x0 : Vec F S1024x2048 .bf16) (x1 : Vec F S2048x256 .bf16) (xi : Vec F S1024x256 .f32) (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k5_pay2 xs x0 x1)) -∗ K ⟨⟩))
      ⊢ wp frame (wpE (defs₀ (F := F)) Variants.none c none) E (cc5__dense_adj_matmul_kernel i arg2 harg2 arg3 harg3 arg4 harg4 arg5 harg5) K := by
  simp only [cc5__dense_adj_matmul_kernel_eq_skeleton]; unfold cc5__dense_adj_matmul_kernel_skel
  unfold owns
  iintro ⟨⟨%f0, %hf0, H0⟩, ⟨%f1, %hf1, H1⟩, ⟨%fi, %hfi, Hi⟩, ⟨%fs, %hfs, HS⟩, Hk⟩
  subst hf0; subst hf1; subst hfi; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists fi; isplitr; · ipureintro; rfl
    iexact Hi
  iexists _; isplitr
  swap; · iexact HS
  ipureintro
  sl_unfold_run_names
  rw [readAt_unit_zero5 arg5.view off00_5, readAt_unit_zero5 arg2.view off00_5, readAt_unit_zero5 arg3.view off00_5]
  exact read_writes_cons_unit_zero5 _ _ off00_5 _ _ _

set_option maxHeartbeats 1000000 in

theorem run5_C (c : Dev nD) (i : grid5.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole)
    (hc0 : ¬cond5_0 i) (hc1 : cond5_1 i)
    (x0 : Vec F S1024x2048 .bf16) (x1 : Vec F S2048x256 .bf16) (xs : Vec F S1024x256 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k5_pay2 xs x0 x1)
            ∗ owns (c : Thread nD τ) arg5 fullShare (k5_pay2 xs x0 x1)) -∗ K ⟨⟩))
      ⊢ wp frame (wpE (defs₀ (F := F)) Variants.none c none) E (cc5__dense_adj_matmul_kernel i arg2 harg2 arg3 harg3 arg4 harg4 arg5 harg5) K := by
  simp only [cc5__dense_adj_matmul_kernel_eq_skeleton]; unfold cc5__dense_adj_matmul_kernel_skel
  unfold owns
  iintro ⟨⟨%f0, %hf0, H0⟩, ⟨%f1, %hf1, H1⟩, ⟨%di, %fi, -, Hi⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists _; isplitr
    swap; · iexact Hi
    ipureintro
    sl_unfold_run_names
    rw [View.readCov_cons_toLoadRect, readAt_unit_zero5 arg5.view off00_5, readAt_unit_zero5 arg2.view off00_5, readAt_unit_zero5 arg3.view off00_5]
    exact read_writes_cons_unit_zero5 _ _ off00_5 _ _ _
  iexists _; isplitr
  swap; · iexact HS
  ipureintro
  sl_unfold_run_names
  rw [readAt_unit_zero5 arg5.view off00_5, readAt_unit_zero5 arg2.view off00_5, readAt_unit_zero5 arg3.view off00_5]
  exact read_writes_cons_unit_zero5 _ _ off00_5 _ _ _

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

theorem Phi5_castSucc (c : Dev nD) (t : Fin cfg5.N) : (dat5 V c).Φ t.castSucc = Phi5 V c t.val := by
  dsimp only [dat5]; simp only [Fin.coe_castSucc]

theorem Phi5_zero (c : Dev nD) :
    Phi5 V c 0 = iprop((∃ r, prngReg c r) ∗ (∃ d, owns (c : Thread nD τ) scM5 fullShare d)
      ∗ Pipeline.scopedRestBut (Ix := Unit) (Name := ℕ) (U := UR sig nD τ) (Lvl := ℕ) spec5 c [cc5_scratch0]) := by
  show iprop((∃ r, prngReg c r) ∗ Pipeline.scopedRest (Ix := Unit) (Name := ℕ) (U := UR sig nD τ) (Lvl := ℕ) spec5 c) = _
  rw [scopedRest5_split]; simp only [scM5, owns_whole]; try rfl

theorem Phi5_pos (c : Dev nD) (n : ℕ) (hz : n ≠ 0) :
    Phi5 V c n = iprop((∃ r, prngReg c r) ∗ owns (c : Thread nD τ) scM5 fullShare (acc5 V c (n - 1))
      ∗ Pipeline.scopedRestBut (Ix := Unit) (Name := ℕ) (U := UR sig nD τ) (Lvl := ℕ) spec5 c [cc5_scratch0]) := by
  cases n with
  | zero => exact absurd rfl hz
  | succ n => rfl

theorem Phi5_in (c : Dev nD) : (iprop((∃ r, prngReg c r) ∗ Pipeline.scopedRest (Ix := Unit) (Name := ℕ) (U := UR sig nD τ) (Lvl := ℕ) spec5 c) : sProp 𝕄) ⊢ (dat5 V c).Φ 0 := by
  rw [show (dat5 V c).Φ 0 = Phi5 V c 0 from rfl]
  exact Idealize.SL.BI.Entails.refl _

theorem Phi5_out (c : Dev nD) : (dat5 V c).Φ (Fin.last cfg5.N) ⊢ (iprop((∃ r, prngReg c r) ∗ Pipeline.scopedRest (Ix := Unit) (Name := ℕ) (U := UR sig nD τ) (Lvl := ℕ) spec5 c) : sProp 𝕄) := by
  rw [show (dat5 V c).Φ (Fin.last cfg5.N) = Phi5 V c cfg5.N from rfl,
    Phi5_pos V c _ (by rw [show cfg5.N = 32 from N_5]; decide), scopedRest5_split]
  iintro ⟨Hp, HS, Hr⟩
  isplitl [Hp]; · iexact Hp
  isplitl [HS]
  · simp only [scM5, owns_whole]; iexists _; iexact HS
  iexact Hr

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl,
    show (dat5 V c).Φ t.succ = iprop((∃ r, prngReg c r) ∗ owns (c : Thread nD τ) scM5 fullShare (acc5 V c t.val)
      ∗ Pipeline.scopedRestBut (Ix := Unit) (Name := ℕ) (U := UR sig nD τ) (Lvl := ℕ) spec5 c [cc5_scratch0]) from rfl,
    Phi5_castSucc,
    show (dat5 V c).leavesExact 0 t = owns (c : Thread nD τ) (st5_0 t) fullShare ((dat5 V c).after 0 t) from by
      unfold Dat.leavesExact; rw [liveAt5_0 t],
    after5_0,
    show (dat5 V c).leavesExact 1 t = owns (c : Thread nD τ) (st5_1 t) fullShare ((dat5 V c).after 1 t) from by
      unfold Dat.leavesExact; rw [liveAt5_1 t],
    after5_1]
  by_cases h0 : t.val % 4 = 0
  · have h3 : ¬ t.val % 4 = 3 := by omega
    rw [Dat.leavesExact_idle (dat5 V c) 2 t (idleAt5_2 t h3) (noFlush5_2 t h3), acc5_eq V c t, if_pos h0]
    have hS : Phi5 V c t.val ⊢ (iprop((∃ r, prngReg c r) ∗ (∃ d, owns (c : Thread nD τ) scM5 fullShare d)
        ∗ Pipeline.scopedRestBut (Ix := Unit) (Name := ℕ) (U := UR sig nD τ) (Lvl := ℕ) spec5 c [cc5_scratch0]) : sProp 𝕄) := by
      by_cases hz : t.val = 0
      · rw [hz, Phi5_zero]
      · rw [Phi5_pos V c _ hz]
        iintro ⟨Hp, HS, Hr⟩
        isplitl [Hp]; · iexact Hp
        isplitl [HS]; · iexists _; iexact HS
        iexact Hr
    iintro ⟨HΦ, Ho, ⟨%d0, H0⟩, ⟨%d1, H1⟩, ⟨%d2, H2⟩⟩
    ihave HΦ' := hS $$ HΦ
    icases HΦ' with ⟨Hp, ⟨%ds, HS⟩, Hr⟩
    iapply (run5_A c (grid5.coords t) _ _ _ _ _ _ _ _ ((hcond5_0 t).mpr h0) (fun h => h3 ((hcond5_1 t).mp h)) (iblk5 V c 0 t) (iblk5 V c 1 t) _ Set.univ _)
    isplitl [H0]; · iexact H0
    isplitl [H1]; · iexact H1
    isplitl [H2]; · iexact H2
    isplitl [HS]; · iexists _; iexact HS
    iintro ⟨H0, H1, H2, HS⟩
    isplitl [Hp HS Hr]
    · isplitl [Hp]; · iexact Hp
      isplitl [HS]; · iexact HS
      iexact Hr
    isplitl [Ho]; · iexact Ho
    isplitl [H0]; · iexact H0
    isplitl [H1]; · iexact H1
    iexists _; iexact H2
  · have hz : t.val ≠ 0 := fun e => h0 (by rw [e])
    rw [Phi5_pos V c _ hz]
    by_cases h3 : t.val % 4 = 3
    · rw [show (dat5 V c).leavesExact 2 t = owns (c : Thread nD τ) (st5_2 t) fullShare ((dat5 V c).after 2 t) from by
          unfold Dat.leavesExact; rw [liveAt5_2 t h3],
        after5_2 V c t h3, acc5_eq V c t, if_neg h0]
      iintro ⟨⟨Hp, HS, Hr⟩, Ho, ⟨%d0, H0⟩, ⟨%d1, H1⟩, ⟨%d2, H2⟩⟩
      iapply (run5_C c (grid5.coords t) _ _ _ _ _ _ _ _ (fun h => h0 ((hcond5_0 t).mp h)) ((hcond5_1 t).mpr h3) (iblk5 V c 0 t) (iblk5 V c 1 t) _ Set.univ _)
      isplitl [H0]; · iexact H0
      isplitl [H1]; · iexact H1
      isplitl [H2]; · iexists _; iexact H2
      isplitl [HS]; · iexact HS
      iintro ⟨H0, H1, H2, HS⟩
      isplitl [Hp HS Hr]
      · isplitl [Hp]; · iexact Hp
        isplitl [HS]; · iexact HS
        iexact Hr
      isplitl [Ho]; · iexact Ho
      isplitl [H0]; · iexact H0
      isplitl [H1]; · iexact H1
      iexact H2
    · rw [Dat.leavesExact_idle (dat5 V c) 2 t (idleAt5_2 t h3) (noFlush5_2 t h3), acc5_eq V c t, if_neg h0]
      iintro ⟨⟨Hp, HS, Hr⟩, Ho, ⟨%d0, H0⟩, ⟨%d1, H1⟩, ⟨%d2, H2⟩⟩
      iapply (run5_B c (grid5.coords t) _ _ _ _ _ _ _ _ (fun h => h0 ((hcond5_0 t).mp h)) (fun h => h3 ((hcond5_1 t).mp h)) (iblk5 V c 0 t) (iblk5 V c 1 t) _ _ Set.univ _)
      isplitl [H0]; · iexact H0
      isplitl [H1]; · iexact H1
      isplitl [H2]; · iexact H2
      isplitl [HS]; · iexact HS
      iintro ⟨H0, H1, H2, HS⟩
      isplitl [Hp HS Hr]
      · isplitl [Hp]; · iexact Hp
        isplitl [HS]; · iexact HS
        iexact Hr
      isplitl [Ho]; · iexact Ho
      isplitl [H0]; · iexact H0
      isplitl [H1]; · iexact H1
      iexists _; iexact H2

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
import proofs.«431399_j28879360098971_2_alg».proof.Proof.KI.Reg0
import proofs.«431399_j28879360098971_2_alg».proof.Proof.KI.Reg1
import proofs.«431399_j28879360098971_2_alg».proof.Proof.KI.Reg2
import proofs.«431399_j28879360098971_2_alg».proof.Proof.KI.Reg3
import proofs.«431399_j28879360098971_2_alg».proof.Proof.KI.Reg4
import proofs.«431399_j28879360098971_2_alg».proof.Proof.KI.Reg5
import proofs.«431399_j28879360098971_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb

abbrev V12 : (c : Dev nD) → (b : Ref sig .tc) → Buf (Elt F) ((c : Thread nD τ).loc b) := fun c b => W12 m ρ c b

theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

abbrev args : List (Ref sig .tc) :=
  [main_arg0, main_arg1, main_arg2, main_arg3, main_arg4, main_arg5, main_arg6, main_arg7, main_arg8, main_arg9]

section
variable (c : Dev nD) {r : Ref sig .tc} (hr : r ∈ args)
include hr

-- No host operation writes an argument, and a region reads one at most: at every boundary it holds its launch contents.
theorem W0_arg : W0 m ρ c (Proc.devRef .tc r) = m ((c : Thread nD τ).loc r) := rfl
theorem W1_arg : W1 m ρ c (Proc.devRef .tc r) = m ((c : Thread nD τ).loc r) :=
  (StableHlo.after_of_writes_sub hostOps0 _ hostOps0_writes ((by decide : ∀ r ∈ args, r ∉ hostOps0_W) r hr)).trans (W0_arg m ρ c hr)
theorem W2_arg : W2 m ρ c (Proc.devRef .tc r) = m ((c : Thread nD τ).loc r) := by
  refine Eq.trans ?_ (W1_arg m ρ c hr)
  by_cases h : ∃ w, Pipeline.arrRef spec0 w = r
  · obtain ⟨w, rfl⟩ := h
    exact (W2_arr m ρ c w).trans (((dat0 (V1 m ρ) c).arrAt_in w
      ((by decide : ∀ w, Pipeline.arrRef spec0 w ∈ args → (cfg0.win w).isOut = false) w hr) _).trans (A_eq0 (V1 m ρ) c w))
  · exact W2_of_ne m ρ c r fun w e => h ⟨w, e⟩
theorem W3_arg : W3 m ρ c (Proc.devRef .tc r) = m ((c : Thread nD τ).loc r) :=
  (StableHlo.after_of_writes_sub hostOps1 _ hostOps1_writes ((by decide : ∀ r ∈ args, r ∉ hostOps1_W) r hr)).trans (W2_arg m ρ c hr)
theorem W4_arg : W4 m ρ c (Proc.devRef .tc r) = m ((c : Thread nD τ).loc r) :=
  (W4_of_ne m ρ c r ((by decide : ∀ r ∈ args, ∀ w, Pipeline.arrRef spec1 w ≠ r) r hr)).trans (W3_arg m ρ c hr)
theorem W5_arg : W5 m ρ c (Proc.devRef .tc r) = m ((c : Thread nD τ).loc r) :=
  (StableHlo.after_of_writes_sub hostOps2 _ hostOps2_writes ((by decide : ∀ r ∈ args, r ∉ hostOps2_W) r hr)).trans (W4_arg m ρ c hr)
theorem W6_arg : W6 m ρ c (Proc.devRef .tc r) = m ((c : Thread nD τ).loc r) := by
  refine Eq.trans ?_ (W5_arg m ρ c hr)
  by_cases h : ∃ w, Pipeline.arrRef spec2 w = r
  · obtain ⟨w, rfl⟩ := h
    exact (W6_arr m ρ c w).trans (((dat2 (V5 m ρ) c).arrAt_in w
      ((by decide : ∀ w, Pipeline.arrRef spec2 w ∈ args → (cfg2.win w).isOut = false) w hr) _).trans (A_eq2 (V5 m ρ) c w))
  · exact W6_of_ne m ρ c r fun w e => h ⟨w, e⟩
theorem W7_arg : W7 m ρ c (Proc.devRef .tc r) = m ((c : Thread nD τ).loc r) :=
  (StableHlo.after_of_writes_sub hostOps3 _ hostOps3_writes ((by decide : ∀ r ∈ args, r ∉ hostOps3_W) r hr)).trans (W6_arg m ρ c hr)
theorem W8_arg : W8 m ρ c (Proc.devRef .tc r) = m ((c : Thread nD τ).loc r) :=
  (W8_of_ne m ρ c r ((by decide : ∀ r ∈ args, ∀ w, Pipeline.arrRef spec3 w ≠ r) r hr)).trans (W7_arg m ρ c hr)
theorem W9_arg : W9 m ρ c (Proc.devRef .tc r) = m ((c : Thread nD τ).loc r) :=
  (StableHlo.after_of_writes_sub hostOps4 _ hostOps4_writes ((by decide : ∀ r ∈ args, r ∉ hostOps4_W) r hr)).trans (W8_arg m ρ c hr)
theorem W10_arg : W10 m ρ c (Proc.devRef .tc r) = m ((c : Thread nD τ).loc r) := by
  refine Eq.trans ?_ (W9_arg m ρ c hr)
  by_cases h : ∃ w, Pipeline.arrRef spec4 w = r
  · obtain ⟨w, rfl⟩ := h
    exact (W10_arr m ρ c w).trans (((dat4 (V9 m ρ) c).arrAt_in w
      ((by decide : ∀ w, Pipeline.arrRef spec4 w ∈ args → (cfg4.win w).isOut = false) w hr) _).trans (A_eq4 (V9 m ρ) c w))
  · exact W10_of_ne m ρ c r fun w e => h ⟨w, e⟩
theorem W11_arg : W11 m ρ c (Proc.devRef .tc r) = m ((c : Thread nD τ).loc r) :=
  (StableHlo.after_of_writes_sub hostOps5 _ hostOps5_writes ((by decide : ∀ r ∈ args, r ∉ hostOps5_W) r hr)).trans (W10_arg m ρ c hr)
theorem W12_arg : W12 m ρ c (Proc.devRef .tc r) = m ((c : Thread nD τ).loc r) :=
  (W12_of_ne m ρ c r ((by decide : ∀ r ∈ args, ∀ w, Pipeline.arrRef spec5 w ≠ r) r hr)).trans (W11_arg m ρ c hr)

end

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨_ + 6, h⟩ => absurd h (Nat.not_lt.2 (Nat.le_add_left _ _))
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

theorem ΦA_in {gr Wn : ℕ} (spec : Fin Wn → Pipeline.WinSpec sig gr) (c : Dev nD) :
    (iprop((∃ r, prngReg c r) ∗ Pipeline.scopedRest (Ix := Unit) (Name := ℕ) (U := UR sig nD τ) (Lvl := ℕ) spec c) : sProp 𝕄) ⊢ Pipeline.ΦA spec c := by
  unfold Pipeline.ΦA
  iintro ⟨Hp, Hr⟩
  isplitl [Hr]; · iexact Hr
  iexact Hp

theorem ΦA_out {gr Wn : ℕ} (spec : Fin Wn → Pipeline.WinSpec sig gr) (c : Dev nD) :
    Pipeline.ΦA spec c ⊢ (iprop((∃ r, prngReg c r) ∗ Pipeline.scopedRest (Ix := Unit) (Name := ℕ) (U := UR sig nD τ) (Lvl := ℕ) spec c) : sProp 𝕄) := by
  unfold Pipeline.ΦA
  iintro ⟨Hr, Hp⟩
  isplitl [Hp]; · iexact Hp
  iexact Hr

-- A region as a segment between two boundary contents that agree off the region's arrays.
set_option backward.isDefEq.respectTransparency.types false in
def mkReg (p : Fin 6) (lf : Pipeline.LaunchFacts (nD := nD) (τ := τ) cfgs p)
    (Wi Wo : Dev nD → Valuation τ sig (Elt F))
    (hbody : ∀ c, Pipeline.BodyObligationLoose (pdats m ρ p c) (defs₀ (F := F)) 𝒱₀ () Set.univ)
    (hq : ∀ c w, (pdats m ρ p c).q w = fullShare) (howed : ∀ c t, (pdats m ρ p c).owed t = 0)
    (hrec : ∀ c t, (pdats m ρ p c).recorded t = Set.univ)
    (hA : ∀ c w, (pdats m ρ p c).A w = Wi c (Proc.devRef .tc (Pipeline.arrRef (pcfgs (F := F) p).spec w)))
    (hF : ∀ c w, (pdats m ρ p c).arrAt w (Pipeline.pin (pcfgs (F := F)) adm p).N = Wo c (Proc.devRef .tc (Pipeline.arrRef (pcfgs (F := F) p).spec w)))
    (hrest : ∀ c (b : Ref sig .tc), b ∉ Finset.univ.image (Pipeline.arrRef (pcfgs (F := F) p).spec) → Wo c (Proc.devRef .tc b) = Wi c (Proc.devRef .tc b))
    (hΦi : ∀ c, (iprop((∃ r, prngReg c r) ∗ Pipeline.scopedRest (Ix := Unit) (Name := ℕ) (U := UR sig nD τ) (Lvl := ℕ) (pcfgs (F := F) p).spec c) : sProp 𝕄) ⊢ (pdats m ρ p c).Φ 0)
    (hΦo : ∀ c, (pdats m ρ p c).Φ (Fin.last _) ⊢ (iprop((∃ r, prngReg c r) ∗ Pipeline.scopedRest (Ix := Unit) (Name := ℕ) (U := UR sig nD τ) (Lvl := ℕ) (pcfgs (F := F) p).spec c) : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Wi c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl ((hrec c 0).symm ▸ Set.mem_univ _)
      iexact HO
    isplitl [Hp]; · iexact Hp
    iexact Hrest
  hin c := by
    iintro ⟨Hp, -, Hr⟩
    iapply (hΦi c)
    isplitl [Hp]; · iexact Hp
    iexact Hr
  hout c := by
    rw [Pipeline.ownSems0_none]
    iintro HΦ
    ihave H := (hΦo c) $$ HΦ
    icases H with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) adm (pdats m ρ) () defs₀ 𝒱₀ L lv 0 :=
  mkReg m ρ 0 launch0 (W1 m ρ) (W2 m ρ) (fun c => (body_obligation0 (V1 m ρ) c).loose) (fun _ _ => rfl) (fun _ _ => rfl)
    (fun _ _ => rfl) (fun _ _ => rfl) (hF0 m ρ) (hrest0 m ρ) (ΦA_in spec0) (ΦA_out spec0)

set_option backward.isDefEq.respectTransparency.types false in
def reg1 : Pipeline.RegionSeg (pcfgs (F := F)) adm (pdats m ρ) () defs₀ 𝒱₀ L lv 1 :=
  mkReg m ρ 1 launch1 (W3 m ρ) (W4 m ρ) (fun c => (body_obligation1 (V3 m ρ) c).loose) (fun _ _ => rfl) (fun _ _ => rfl)
    (fun _ _ => rfl) (fun _ _ => rfl) (hF1 m ρ) (hrest1 m ρ) (ΦA_in spec1) (ΦA_out spec1)

set_option backward.isDefEq.respectTransparency.types false in
def reg2 : Pipeline.RegionSeg (pcfgs (F := F)) adm (pdats m ρ) () defs₀ 𝒱₀ L lv 2 :=
  mkReg m ρ 2 launch2 (W5 m ρ) (W6 m ρ) (fun c => (body_obligation2 (V5 m ρ) c).loose) (fun _ _ => rfl) (fun _ _ => rfl)
    (fun _ _ => rfl) (fun _ _ => rfl) (hF2 m ρ) (hrest2 m ρ) (ΦA_in spec2) (ΦA_out spec2)

set_option backward.isDefEq.respectTransparency.types false in
def reg3 : Pipeline.RegionSeg (pcfgs (F := F)) adm (pdats m ρ) () defs₀ 𝒱₀ L lv 3 :=
  mkReg m ρ 3 launch3 (W7 m ρ) (W8 m ρ) (fun c => (body_obligation3 (V7 m ρ) c).loose) (fun _ _ => rfl) (fun _ _ => rfl)
    (fun _ _ => rfl) (fun _ _ => rfl) (hF3 m ρ) (hrest3 m ρ) (Phi3_in (V7 m ρ)) (Phi3_out (V7 m ρ))

set_option backward.isDefEq.respectTransparency.types false in
def reg4 : Pipeline.RegionSeg (pcfgs (F := F)) adm (pdats m ρ) () defs₀ 𝒱₀ L lv 4 :=
  mkReg m ρ 4 launch4 (W9 m ρ) (W10 m ρ) (fun c => (body_obligation4 (V9 m ρ) c).loose) (fun _ _ => rfl) (fun _ _ => rfl)
    (fun _ _ => rfl) (fun _ _ => rfl) (hF4 m ρ) (hrest4 m ρ) (ΦA_in spec4) (ΦA_out spec4)

set_option backward.isDefEq.respectTransparency.types false in
def reg5 : Pipeline.RegionSeg (pcfgs (F := F)) adm (pdats m ρ) () defs₀ 𝒱₀ L lv 5 :=
  mkReg m ρ 5 launch5 (W11 m ρ) (W12 m ρ) (fun c => (body_obligation5 (V11 m ρ) c).loose) (fun _ _ => rfl) (fun _ _ => rfl)
    (fun _ _ => rfl) (fun _ _ => rfl) (hF5 m ρ) (hrest5 m ρ) (Phi5_in (V11 m ρ)) (Phi5_out (V11 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]

theorem main_run (c : Dev nD) : main (F := F) c = Pipeline.Seg.run (segs m ρ) := (main_chain c).trans (by chain_rfl)

set_option backward.isDefEq.respectTransparency.types false in

theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      change iprop(_ ∗ _ ∗ _) ⊢ iprop((_ ∗ _) ∗ _)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

theorem run_all : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  run_post m ρ fun s h => h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_post m ρ fun s h c => by
    refine ⟨?_, ?_, ?_, ?_, ?_, ?_, ?_, ?_, ?_, ?_⟩ <;>
      exact (h c _ (mem_uc _ (by decide))).trans (W12_arg m ρ c (by decide))

end Cert.KernelIdeal.Hand

end
-- ==== Proof.KI.Carry.lean ====
import proofs.«431399_j28879360098971_2_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

theorem W2_main_v1 (c : Dev nD) : W2 m ρ c (Proc.devRef .tc main_v1) = (dat0 (V1 m ρ) c).arrAt 3 cfg0.N := W2_arr m ρ c 3

theorem W4_main_v8 (c : Dev nD) : W4 m ρ c (Proc.devRef .tc main_v8) = (dat1 (V3 m ρ) c).arrAt 3 cfg1.N := W4_arr m ρ c 3

theorem W6_main_v10 (c : Dev nD) : W6 m ρ c (Proc.devRef .tc main_v10) = (dat2 (V5 m ρ) c).arrAt 3 cfg2.N := W6_arr m ρ c 3

theorem W8_main_v20 (c : Dev nD) : W8 m ρ c (Proc.devRef .tc main_v20) = (dat3 (V7 m ρ) c).arrAt 2 cfg3.N := W8_arr m ρ c 2

theorem W10_main_v22 (c : Dev nD) : W10 m ρ c (Proc.devRef .tc main_v22) = (dat4 (V9 m ρ) c).arrAt 3 cfg4.N := W10_arr m ρ c 3

theorem W12_main_v24 (c : Dev nD) : W12 m ρ c (Proc.devRef .tc main_v24) = (dat5 (V11 m ρ) c).arrAt 2 cfg5.N := W12_arr m ρ c 2

theorem W12_main_v8 (c : Dev nD) : W12 m ρ c (Proc.devRef .tc main_v8) = (dat1 (V3 m ρ) c).arrAt 3 cfg1.N :=
  calc W12 m ρ c (Proc.devRef .tc main_v8)
    _ = W11 m ρ c (Proc.devRef .tc main_v8) := W12_of_ne m ρ c main_v8 (by decide)
    _ = W10 m ρ c (Proc.devRef .tc main_v8) := StableHlo.after_of_writes_sub hostOps5 _ hostOps5_writes (by decide)
    _ = W9 m ρ c (Proc.devRef .tc main_v8) := W10_of_ne m ρ c main_v8 (by decide)
    _ = W8 m ρ c (Proc.devRef .tc main_v8) := StableHlo.after_of_writes_sub hostOps4 _ hostOps4_writes (by decide)
    _ = W7 m ρ c (Proc.devRef .tc main_v8) := W8_of_ne m ρ c main_v8 (by decide)
    _ = W6 m ρ c (Proc.devRef .tc main_v8) := StableHlo.after_of_writes_sub hostOps3 _ hostOps3_writes (by decide)
    _ = W5 m ρ c (Proc.devRef .tc main_v8) := W6_of_ne m ρ c main_v8 (by decide)
    _ = W4 m ρ c (Proc.devRef .tc main_v8) := StableHlo.after_of_writes_sub hostOps2 _ hostOps2_writes (by decide)
    _ = (dat1 (V3 m ρ) c).arrAt 3 cfg1.N := W4_main_v8 m ρ c

theorem V1_main_v0 (c : Dev nD) : V1 m ρ c main_v0
    = shapeCast S1x512 (m ((c : Thread nD τ).loc main_arg5)) shapeCasts_S512_S1x512 := by
  show W1 m ρ c (Proc.devRef .tc main_v0) = _
  unfold W1
  after_results
  rfl

theorem V3_main_v2 (c : Dev nD) : V3 m ρ c main_v2
    = truncf .bf16 ((dat0 (V1 m ρ) c).arrAt 3 cfg0.N) bitsLt_bf16_f32 := by
  show W3 m ρ c (Proc.devRef .tc main_v2) = _
  unfold W3
  after_results
  rw [W2_main_v1 m ρ c]

theorem V3_main_v6 (c : Dev nD) : V3 m ρ c main_v6
    = Host.sqrt (broadcastInDim S8192x1 ![0] bcast_S8192_S8192x1_0
        (Host.reduceAdd (mulf ((dat0 (V1 m ρ) c).arrAt 3 cfg0.N) ((dat0 (V1 m ρ) c).arrAt 3 cfg0.N))
          (constant S_ .f32 0x00000000#32) reducesTo_S8192x512_S8192_d1 h_S_)) := by
  show W3 m ρ c (Proc.devRef .tc main_v6) = _
  unfold W3
  after_results
  rw [W2_main_v1 m ρ c]

theorem V3_main_v7 (c : Dev nD) : V3 m ρ c main_v7
    = shapeCast S1x8192 (Host.sqrt (broadcastInDim S8192x1 ![0] bcast_S8192_S8192x1_0
        (Host.reduceAdd (mulf ((dat0 (V1 m ρ) c).arrAt 3 cfg0.N) ((dat0 (V1 m ρ) c).arrAt 3 cfg0.N))
          (constant S_ .f32 0x00000000#32) reducesTo_S8192x512_S8192_d1 h_S_))) shapeCasts_S8192x1_S1x8192 := by
  show W3 m ρ c (Proc.devRef .tc main_v7) = _
  unfold W3
  after_results
  rw [W2_main_v1 m ρ c]
  rfl

theorem V5_main_v9 (c : Dev nD) : V5 m ρ c main_v9
    = shapeCast S1x512 (m ((c : Thread nD τ).loc main_arg7)) shapeCasts_S512_S1x512 := by
  show W5 m ρ c (Proc.devRef .tc main_v9) = _
  unfold W5
  after_results
  rw [W4_arg m ρ c (r := main_arg7) (by decide)]
  rfl

theorem V7_main_v18 (c : Dev nD) : V7 m ρ c main_v18
    = truncf .bf16 (shapeCast S8192x8192
        (Host.scatterAdd scatter_S67108864_S262144x1_S262144_n_0_0_1
          (broadcastInDim S67108864 ![] bcast_S_S67108864 (constant S_ .f32 0x00000000#32))
          (broadcastInDim S262144x1 ![0] bcast_S262144_S262144x1_0
            (addi (muli (m ((c : Thread nD τ).loc main_arg2)) (broadcastInDim S262144 ![] bcast_S_S262144 (constantI S_ 32 8192#32)))
              (m ((c : Thread nD τ).loc main_arg1))))
          (m ((c : Thread nD τ).loc main_arg3)))
        shapeCasts_S67108864_S8192x8192) bitsLt_bf16_f32 := by
  show W7 m ρ c (Proc.devRef .tc main_v18) = _
  unfold W7
  after_results
  rw [W6_arg m ρ c (r := main_arg1) (by decide), W6_arg m ρ c (r := main_arg2) (by decide), W6_arg m ρ c (r := main_arg3) (by decide)]
  rfl

theorem V7_main_v19 (c : Dev nD) : V7 m ρ c main_v19
    = truncf .bf16 ((dat2 (V5 m ρ) c).arrAt 3 cfg2.N) bitsLt_bf16_f32 := by
  show W7 m ρ c (Proc.devRef .tc main_v19) = _
  unfold W7
  after_results
  rw [W6_main_v10 m ρ c]

theorem V9_main_v20 (c : Dev nD) : V9 m ρ c main_v20 = (dat3 (V7 m ρ) c).arrAt 2 cfg3.N :=
  (StableHlo.after_of_writes_sub hostOps4 _ hostOps4_writes (by decide)).trans (W8_main_v20 m ρ c)

theorem V9_main_v21 (c : Dev nD) : V9 m ρ c main_v21
    = shapeCast S1x256 (m ((c : Thread nD τ).loc main_arg9)) shapeCasts_S256_S1x256 := by
  show W9 m ρ c (Proc.devRef .tc main_v21) = _
  unfold W9
  after_results
  rw [W8_arg m ρ c (r := main_arg9) (by decide)]
  rfl

theorem V11_main_v18 (c : Dev nD) : V11 m ρ c main_v18 = V7 m ρ c main_v18 :=
  show W11 m ρ c (Proc.devRef .tc main_v18) = W7 m ρ c (Proc.devRef .tc main_v18) from calc W11 m ρ c (Proc.devRef .tc main_v18)
    _ = W10 m ρ c (Proc.devRef .tc main_v18) := StableHlo.after_of_writes_sub hostOps5 _ hostOps5_writes (by decide)
    _ = W9 m ρ c (Proc.devRef .tc main_v18) := W10_of_ne m ρ c main_v18 (by decide)
    _ = W8 m ρ c (Proc.devRef .tc main_v18) := StableHlo.after_of_writes_sub hostOps4 _ hostOps4_writes (by decide)
    _ = W7 m ρ c (Proc.devRef .tc main_v18) := (W8_arr m ρ c 0).trans (((dat3 (V7 m ρ) c).arrAt_in 0 rfl _).trans (A_eq3 (V7 m ρ) c 0))

theorem V11_main_v23 (c : Dev nD) : V11 m ρ c main_v23
    = truncf .bf16 ((dat4 (V9 m ρ) c).arrAt 3 cfg4.N) bitsLt_bf16_f32 := by
  show W11 m ρ c (Proc.devRef .tc main_v23) = _
  unfold W11
  after_results
  rw [W10_main_v22 m ρ c]

theorem V1_main_arg0 (c : Dev nD) : V1 m ρ c main_arg0
    = m ((c : Thread nD τ).loc main_arg0) := W1_arg m ρ c (by decide)

theorem V1_main_arg4 (c : Dev nD) : V1 m ρ c main_arg4
    = m ((c : Thread nD τ).loc main_arg4) := W1_arg m ρ c (by decide)

theorem V5_main_arg0 (c : Dev nD) : V5 m ρ c main_arg0
    = m ((c : Thread nD τ).loc main_arg0) := W5_arg m ρ c (by decide)

theorem V5_main_arg6 (c : Dev nD) : V5 m ρ c main_arg6
    = m ((c : Thread nD τ).loc main_arg6) := W5_arg m ρ c (by decide)

theorem V9_main_arg8 (c : Dev nD) : V9 m ρ c main_arg8
    = m ((c : Thread nD τ).loc main_arg8) := W9_arg m ρ c (by decide)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev c2 {α : Type} {n0 n1 : ℕ} (v : (⟨2, ![n0, n1]⟩ : Shape).Idx → α) : Fin n0 → Fin n1 → α := fun i j => v (ix2 i j)

abbrev c1 {α : Type} {n : ℕ} (v : (⟨1, ![n]⟩ : Shape).Idx → α) : Fin n → α := fun i => v (ix1 i)

abbrev row0 {α : Type} {n : ℕ} (v : (⟨2, ![1, n]⟩ : Shape).Idx → α) : Fin n → α := fun j => v (ix2 0 j)

def node (w : BitVec 32) : Fin 8192 := ⟨w.toNat % 8192, Nat.mod_lt _ (by norm_num)⟩

def InRange (a : (⟨1, ![262144]⟩ : Shape).Idx → BitVec 32) : Prop := ∀ e, (a e).toNat < 8192

def IsReal (x : EReal) : Prop := ∃ r : ℝ, x = (r : EReal)

def lin {M K N : ℕ} (x : Fin M → Fin K → EReal) (w : Fin K → Fin N → EReal) (b : Fin N → EReal) :
    Fin M → Fin N → EReal :=
  fun i j => (∑ k : Fin K, x i k * w k j) + b j

def relu {M N : ℕ} (x : Fin M → Fin N → EReal) : Fin M → Fin N → EReal :=
  fun i j => max (x i j) 0

def rowNorm {M K : ℕ} (z : Fin M → Fin K → EReal) : Fin M → EReal :=
  fun i => Ideal.sqrt (0 + ∑ k : Fin K, z i k * z i k)

def cosine {M K : ℕ} (z : Fin M → Fin K → EReal) : Fin M → Fin M → EReal :=
  fun i j => Ideal.div (∑ k : Fin K, z i k * z j k) (rowNorm z i * rowNorm z j)

def sim {M K : ℕ} (z : Fin M → Fin K → EReal) : Fin M → Fin M → EReal :=
  fun i j => if i = j then 0 else cosine z i j

def edgeSum {E N D : ℕ} (src dst : Fin E → Fin N) (wt : Fin E → EReal) (h : Fin N → Fin D → EReal) :
    Fin N → Fin D → EReal :=
  fun i f => 0 + ∑ e ∈ Finset.univ.filter (fun e : Fin E => dst e = i), wt e * h (src e) f

def adj {E N : ℕ} (src dst : Fin E → Fin N) (wt : Fin E → EReal) : Fin N → Fin N → EReal :=
  fun i j => 0 + ∑ e ∈ Finset.univ.filter (fun e : Fin E => dst e = i ∧ src e = j), wt e

def denseMul {N D : ℕ} (A : Fin N → Fin 8192 → EReal) (h : Fin 8192 → Fin D → EReal) : Fin N → Fin D → EReal :=
  fun i f =>
    let blk : Fin 4 → EReal := fun q => 0 + ∑ k : Fin 2048, A i ⟨q.val * 2048 + k.val, by omega⟩ * h ⟨q.val * 2048 + k.val, by omega⟩ f
    (((0 + blk 0) + blk 1) + blk 2) + blk 3

section Programs

variable (X : Fin 8192 → Fin 512 → EReal) (src dst : Fin 262144 → Fin 8192) (wt : Fin 262144 → EReal)
  (Wr : Fin 512 → Fin 512 → EReal) (br : Fin 512 → EReal) (W1 : Fin 512 → Fin 512 → EReal) (b1 : Fin 512 → EReal)
  (W2 : Fin 512 → Fin 256 → EReal) (b2 : Fin 256 → EReal)

def simOut : Fin 8192 → Fin 8192 → EReal := sim (lin X Wr br)

def denseOut : Fin 8192 → Fin 256 → EReal :=
  denseMul (adj src dst wt) (lin (relu (denseMul (adj src dst wt) (lin X W1 b1))) W2 b2)

def edgeOut : Fin 8192 → Fin 256 → EReal :=
  edgeSum src dst wt (lin (relu (edgeSum src dst wt (lin X W1 b1))) W2 b2)

end Programs

end Cert.Spec

end
-- ==== Proof.KI.ValLin.lean ====
import proofs.«431399_j28879360098971_2_alg».proof.Proof.KI.Reg0
import proofs.«431399_j28879360098971_2_alg».proof.Proof.KI.Reg2
import proofs.«431399_j28879360098971_2_alg».proof.Proof.KI.Reg4
import proofs.«431399_j28879360098971_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Cert.Spec Idealize.ShloMosaic Idealize.ShloMosaic.TcCoe Idealize.ShloMosaic.ValueIdx
open Idealize.ShloMosaic.Pipeline (Dat)

theorem lhs_prod512_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_prod512_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_prod512_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_prod512_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

theorem prod512_apply (x : FVec Ideal S1024x512 .bf16) (w : FVec Ideal S512x512 .bf16) (p : Fin 1024) (q : Fin 512) :
    matmul dot_S1024x512_S512x512_S1024x512_1_0_0_1_n_n none x w (constant S1024x512 .f32 0x00000000#32) (ix2 p q)
      = ∑ k : Fin 512, x (ix2 p k) * w (ix2 k q) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact lhs_prod512_0 _ _
    | ⟨1, _⟩ => exact (lhs_prod512_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (rhs_prod512_0 _ _).trans hk
    | ⟨1, _⟩ => exact rhs_prod512_1 _ _)
  rw [el, er]

theorem bias512_apply (b : Vec Ideal S1x512 .f32) (p : Fin 1024) (q : Fin 512) :
    broadcastTo S1024x512 b broadcasts_S1x512_S1024x512 (ix2 p q) = b (ix2 0 q) := by
  refine broadcastTo_apply b _ _ (ix2 0 q) fun a => ?_
  match a with
  | ⟨0, _⟩ => rfl
  | ⟨1, _⟩ => rfl

theorem k0_pay1_apply (x : Vec Ideal S1024x512 .f32) (w : Vec Ideal S512x512 .f32) (b : Vec Ideal S1x512 .f32) (p : Fin 1024) (q : Fin 512) :
    k0_pay1 (F := Ideal) x w b (ix2 p q) = (∑ k : Fin 512, x (ix2 p k) * w (ix2 k q)) + b (ix2 0 q) := by
  unfold k0_pay1
  rw [addf_apply, shapeCast_self, bias512_apply, prod512_apply]
  rfl

theorem lhs_prod256_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_prod256_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs_prod256_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs_prod256_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

theorem prod256_apply (x : FVec Ideal S1024x512 .bf16) (w : FVec Ideal S512x256 .bf16) (p : Fin 1024) (q : Fin 256) :
    matmul dot_S1024x512_S512x256_S1024x256_1_0_0_1_n_n none x w (constant S1024x256 .f32 0x00000000#32) (ix2 p q)
      = ∑ k : Fin 512, x (ix2 p k) * w (ix2 k q) := by
  simp only [matmul]
  rw [Ideal.matmul_constant_zero_apply, ← Equiv.sum_comp (ValueIdx.contrEquiv1 dot_S1024x512_S512x256_S1024x256_1_0_0_1_n_n 512 rfl rfl).symm]
  refine Finset.sum_congr rfl fun k _ => ?_
  have hk := ValueIdx.contrEquiv1_symm_val dot_S1024x512_S512x256_S1024x256_1_0_0_1_n_n 512 rfl rfl k
  have el : dot_S1024x512_S512x256_S1024x256_1_0_0_1_n_n.lhsIdx (ix2 p q) ((ValueIdx.contrEquiv1 dot_S1024x512_S512x256_S1024x256_1_0_0_1_n_n 512 rfl rfl).symm k) = ix2 p k := funext fun a => Fin.ext (by
    match a with
    | ⟨0, _⟩ => exact lhs_prod256_0 _ _
    | ⟨1, _⟩ => exact (lhs_prod256_1 _ _).trans hk)
  have er : dot_S1024x512_S512x256_S1024x256_1_0_0_1_n_n.rhsIdx (ix2 p q) ((ValueIdx.contrEquiv1 dot_S1024x512_S512x256_S1024x256_1_0_0_1_n_n 512 rfl rfl).symm k) = ix2 k q := funext fun a => Fin.ext (by
    match a with
    | ⟨0, _⟩ => exact (rhs_prod256_0 _ _).trans hk
    | ⟨1, _⟩ => exact rhs_prod256_1 _ _)
  rw [el, er]

theorem bias256_apply (b : Vec Ideal S1x256 .f32) (p : Fin 1024) (q : Fin 256) :
    broadcastTo S1024x256 b broadcasts_S1x256_S1024x256 (ix2 p q) = b (ix2 0 q) := by
  refine broadcastTo_apply b _ _ (ix2 0 q) fun a => ?_
  match a with
  | ⟨0, _⟩ => rfl
  | ⟨1, _⟩ => rfl

theorem k4_pay1_apply (x : Vec Ideal S1024x512 .f32) (w : Vec Ideal S512x256 .f32) (b : Vec Ideal S1x256 .f32) (p : Fin 1024) (q : Fin 256) :
    k4_pay1 (F := Ideal) x w b (ix2 p q) = (∑ k : Fin 512, max (x (ix2 p k)) 0 * w (ix2 k q)) + b (ix2 0 q) := by
  unfold k4_pay1
  rw [addf_apply, shapeCast_self, shapeCast_self, bias256_apply, prod256_apply]
  refine congrArg (· + b (ix2 0 q)) (Finset.sum_congr rfl fun k _ => ?_)
  show max (x (ix2 p k)) (Ideal.ofBits .f32 0x00000000#32) * w (ix2 k q) = _
  rw [Ideal.ofBits_zero_f32]

variable (V : (c : Dev nD) → (b : Ref sig .tc) → Buf (Elt Ideal) ((c : Thread nD τ).loc b))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem block_entry0 (X : S8192x512.Idx → EReal) (x : Vec Ideal S1024x512 .f32) (w : Vec Ideal S512x512 .f32) (b : Vec Ideal S1x512 .f32) (r : ℕ)
    (hx : ∀ (y : S1024x512.Idx) (i : S8192x512.Idx), (i 0).val = r * 1024 + (y 0).val → (i 1).val = (y 1).val → x y = X i)
    (j : S1024x512.Idx) (i : S8192x512.Idx) (hi0 : (i 0).val = r * 1024 + (j 0).val) (hi1 : (i 1).val = (j 1).val) :
    k0_pay1 (F := Ideal) x w b j = Spec.lin (c2 (α := EReal) (n0 := 8192) (n1 := 512) X) (c2 (α := EReal) (n0 := 512) (n1 := 512) w) (row0 (α := EReal) (n := 512) b) (i 0) (i 1) := by
  obtain ⟨p, q, rfl⟩ : ∃ (p : Fin 1024) (q : Fin 512), j = ix2 p q := ⟨j 0, j 1, eq_ix2 j⟩
  rw [k0_pay1_apply]
  have hq : i 1 = q := Fin.ext hi1
  show _ = (∑ k : Fin 512, X (ix2 (i 0) k) * w (ix2 k (i 1))) + b (ix2 0 (i 1))
  rw [hq]
  refine congrArg (· + b (ix2 0 q)) (Finset.sum_congr rfl fun k _ => ?_)
  rw [hx (ix2 p k) (ix2 (i 0) k) hi0 rfl]

abbrev G0 (c : Dev nD) : S8192x512.Idx → EReal :=
  fun j => Spec.lin (c2 (α := EReal) (n0 := 8192) (n1 := 512) (V c main_arg0)) (c2 (α := EReal) (n0 := 512) (n1 := 512) (V c main_arg4)) (row0 (α := EReal) (n := 512) (V c main_v0)) (j 0) (j 1)

theorem iblk0_1_whole (c : Dev nD) (t : Fin cfg0.N) : (iblk0 V c 1 t : Vec Ideal S512x512 .f32) = V c main_arg4 := by
  obtain ⟨-, -, e10, e11, -, -, -, -⟩ := idx_facts0 t
  funext y
  show V c main_arg4 (((cfg0.win 1).blk t).view.emb y) = V c main_arg4 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

theorem iblk0_2_whole (c : Dev nD) (t : Fin cfg0.N) : (iblk0 V c 2 t : Vec Ideal S1x512 .f32) = V c main_v0 := by
  obtain ⟨-, -, -, -, e20, e21, -, -⟩ := idx_facts0 t
  funext y
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3, iblk0_1_whole, iblk0_2_whole]
  obtain ⟨e00, e01, -, -, -, -, e30, e31⟩ := idx_facts0 t
  funext j
  refine block_entry0 (V c main_arg0) (iblk0 V c 0 t) (V c main_arg4) (V c main_v0) t.val ?_
    ((cfg0.win 3).xinj (grid0.coords t) j) (((cfg0.win 3).blk t).view.emb j) ?_ ?_
  · intro y i h0 h1
    show V c main_arg0 (((cfg0.win 0).blk t).view.emb y) = V c main_arg0 i
    refine congrArg _ (funext fun a => Fin.ext ?_)
    match a with
    | ⟨0, _⟩ => show win0_0.index t (0 : Fin 2) * 1024 + 1 * (y 0).val = (i 0).val; omega
    | ⟨1, _⟩ => show win0_0.index t (1 : Fin 2) * 512 + 1 * (y 1).val = (i 1).val; omega
  · show win0_3.index t (0 : Fin 2) * 1024 + 1 * (j 0).val = t.val * 1024 + (j 0).val; omega
  · show win0_3.index t (1 : Fin 2) * 512 + 1 * (j 1).val = (j 1).val; omega

theorem mem_blk0 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

theorem cover0 (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

theorem arr0 (c : Dev nD) : (dat0 V c).arrAt 3 cfg0.N = (fun j => Spec.lin (c2 (α := EReal) (n0 := 8192) (n1 := 512) (V c main_arg0)) (c2 (α := EReal) (n0 := 512) (n1 := 512) (V c main_arg4)) (row0 (α := EReal) (n := 512) (V c main_v0)) (j 0) (j 1) : S8192x512.Idx → EReal) :=
  (dat0 V c).arrAt_eq_of_cover 3 (G0 V c) (fun t _ => flushed0_eq V c t) cover0

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

abbrev G2 (c : Dev nD) : S8192x512.Idx → EReal :=
  fun j => Spec.lin (c2 (α := EReal) (n0 := 8192) (n1 := 512) (V c main_arg0)) (c2 (α := EReal) (n0 := 512) (n1 := 512) (V c main_arg6)) (row0 (α := EReal) (n := 512) (V c main_v9)) (j 0) (j 1)

theorem iblk2_1_whole (c : Dev nD) (t : Fin cfg2.N) : (iblk2 V c 1 t : Vec Ideal S512x512 .f32) = V c main_arg6 := by
  obtain ⟨-, -, e10, e11, -, -, -, -⟩ := idx_facts2 t
  funext y
  show V c main_arg6 (((cfg2.win 1).blk t).view.emb y) = V c main_arg6 y
  refine congrArg _ (funext fun a => Fin.ext ?_)
  match a with
  | ⟨0, _⟩ => show win2_1.index t (0 : Fin 2) * 512 + 1 * (y 0).val = (y 0).val; omega
  | ⟨1, _⟩ => show win2_1.index t (1 : Fin 2) * 512 + 1 * (y 1).val = (y 1).val; omega

theorem iblk2_2_whole (c : Dev nD) (t : Fin cfg2.N) : (iblk2 V c 2 t : Vec Ideal S1x512 .f32) = V c main_v9 := by
  obtain ⟨-, -, -, -, e20, e21, -, -⟩ := idx_facts2 t
  funext y
  show V c main_v9 (((cfg2.win 2).blk t).view.emb y) = V c main_v9 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 512 + 1 * (y 1).val = (y 1).val; omega

theorem flushed2_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3, iblk2_1_whole, iblk2_2_whole]
  obtain ⟨e00, e01, -, -, -, -, e30, e31⟩ := idx_facts2 t
  funext j
  refine block_entry0 (V c main_arg0) (iblk2 V c 0 t) (V c main_arg6) (V c main_v9) t.val ?_
    ((cfg2.win 3).xinj (grid2.coords t) j) (((cfg2.win 3).blk t).view.emb j) ?_ ?_
  · intro y i h0 h1
    show V c main_arg0 (((cfg2.win 0).blk t).view.emb y) = V c main_arg0 i
    refine congrArg _ (funext fun a => Fin.ext ?_)
    match a with
    | ⟨0, _⟩ => show win2_0.index t (0 : Fin 2) * 1024 + 1 * (y 0).val = (i 0).val; omega
    | ⟨1, _⟩ => show win2_0.index t (1 : Fin 2) * 512 + 1 * (y 1).val = (i 1).val; omega
  · show win2_3.index t (0 : Fin 2) * 1024 + 1 * (j 0).val = t.val * 1024 + (j 0).val; omega
  · show win2_3.index t (1 : Fin 2) * 512 + 1 * (j 1).val = (j 1).val; omega

theorem mem_blk2 (t : Fin cfg2.N) (i : S8192x512.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v10).slice (win2_3.rect t)).set ↔ _
  rw [View.set_slice_whole, Rect.mem_set_unit]
  exact Iff.rfl

theorem cover2 (i : S8192x512.Idx) : ∃ t : Fin cfg2.N, (cfg2.win 3).flush t = true ∧ i ∈ ((cfg2.win 3).blk t).view.set := by
  have hi0 : (i 0).val < 8192 := (i 0).isLt
  have hi1 : (i 1).val < 512 := (i 1).isLt
  have hN : cfg2.N = 8 := N_2
  obtain ⟨t, ht⟩ : ∃ t : Fin cfg2.N, t.val = (i 0).val / 1024 := ⟨⟨(i 0).val / 1024, by omega⟩, rfl⟩
  obtain ⟨-, -, -, -, -, -, e30, e31⟩ := idx_facts2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

theorem arr2 (c : Dev nD) : (dat2 V c).arrAt 3 cfg2.N = (fun j => Spec.lin (c2 (α := EReal) (n0 := 8192) (n1 := 512) (V c main_arg0)) (c2 (α := EReal) (n0 := 512) (n1 := 512) (V c main_arg6)) (row0 (α := EReal) (n := 512) (V c main_v9)) (j 0) (j 1) : S8192x512.Idx → EReal) :=
  (dat2 V c).arrAt_eq_of_cover 3 (G2 V c) (fun t _ => flushed2_eq V c t) cover2

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem block_entry4 (X : S8192x512.Idx → EReal) (x : Vec Ideal S1024x512 .f32) (w : Vec Ideal S512x256 .f32) (b : Vec Ideal S1x256 .f32) (r : ℕ)
    (hx : ∀ (y : S1024x512.Idx) (i : S8192x512.Idx), (i 0).val = r * 1024 + (y 0).val → (i 1).val = (y 1).val → x y = X i)
    (j : S1024x256.Idx) (i : S8192x256.Idx) (hi0 : (i 0).val = r * 1024 + (j 0).val) (hi1 : (i 1).val = (j 1).val) :
    k4_pay1 (F := Ideal) x w b j = Spec.lin (Spec.relu (c2 (α := EReal) (n0 := 8192) (n1 := 512) X)) (c2 (α := EReal) (n0 := 512) (n1 := 256) w) (row0 (α := EReal) (n := 256) b) (i 0) (i 1) := by
  obtain ⟨p, q, rfl⟩ : ∃ (p : Fin 1024) (q : Fin 256), j = ix2 p q := ⟨j 0, j 1, eq_ix2 j⟩
  rw [k4_pay1_apply]
  have hq : i 1 = q := Fin.ext hi1
  show _ = (∑ k : Fin 512, max (X (ix2 (i 0) k)) 0 * w (ix2 k (i 1))) + b (ix2 0 (i 1))
  rw [hq]
  refine congrArg (· + b (ix2 0 q)) (Finset.sum_congr rfl fun k _ => ?_)
  rw [hx (ix2 p k) (ix2 (i 0) k) hi0 rfl]

abbrev G4 (c : Dev nD) : S8192x256.Idx → EReal :=
  fun j => Spec.lin (Spec.relu (c2 (α := EReal) (n0 := 8192) (n1 := 512) (V c main_v20))) (c2 (α := EReal) (n0 := 512) (n1 := 256) (V c main_arg8)) (row0 (α := EReal) (n := 256) (V c main_v21)) (j 0) (j 1)

theorem iblk4_1_whole (c : Dev nD) (t : Fin cfg4.N) : (iblk4 V c 1 t : Vec Ideal S512x256 .f32) = V c main_arg8 := by
  obtain ⟨-, -, e10, e11, -, -, -, -⟩ := idx_facts4 t
  funext y
  show V c main_arg8 (((cfg4.win 1).blk t).view.emb y) = V c main_arg8 y
  refine congrArg _ (funext fun a => Fin.ext ?_)
  match a with
  | ⟨0, _⟩ => show win4_1.index t (0 : Fin 2) * 512 + 1 * (y 0).val = (y 0).val; omega
  | ⟨1, _⟩ => show win4_1.index t (1 : Fin 2) * 256 + 1 * (y 1).val = (y 1).val; omega

theorem iblk4_2_whole (c : Dev nD) (t : Fin cfg4.N) : (iblk4 V c 2 t : Vec Ideal S1x256 .f32) = V c main_v21 := by
  obtain ⟨-, -, -, -, e20, e21, -, -⟩ := idx_facts4 t
  funext y
  show V c main_v21 (((cfg4.win 2).blk t).view.emb y) = V c main_v21 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 256 + 1 * (y 1).val = (y 1).val; omega

theorem flushed4_eq (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3, iblk4_1_whole, iblk4_2_whole]
  obtain ⟨e00, e01, -, -, -, -, e30, e31⟩ := idx_facts4 t
  funext j
  refine block_entry4 (V c main_v20) (iblk4 V c 0 t) (V c main_arg8) (V c main_v21) t.val ?_
    ((cfg4.win 3).xinj (grid4.coords t) j) (((cfg4.win 3).blk t).view.emb j) ?_ ?_
  · intro y i h0 h1
    show V c main_v20 (((cfg4.win 0).blk t).view.emb y) = V c main_v20 i
    refine congrArg _ (funext fun a => Fin.ext ?_)
    match a with
    | ⟨0, _⟩ => show win4_0.index t (0 : Fin 2) * 1024 + 1 * (y 0).val = (i 0).val; omega
    | ⟨1, _⟩ => show win4_0.index t (1 : Fin 2) * 512 + 1 * (y 1).val = (i 1).val; omega
  · show win4_3.index t (0 : Fin 2) * 1024 + 1 * (j 0).val = t.val * 1024 + (j 0).val; omega
  · show win4_3.index t (1 : Fin 2) * 256 + 1 * (j 1).val = (j 1).val; omega

theorem mem_blk4 (t : Fin cfg4.N) (i : S8192x256.Idx) :
    i ∈ ((cfg4.win 3).blk t).view.set ↔ ∀ a : Fin 2, win4_3.index t a * S1024x256.size a ≤ (i a).val ∧ (i a).val < win4_3.index t a * S1024x256.size a + S1024x256.size a := by
  show i ∈ ((View.whole main_v22).slice (win4_3.rect t)).set ↔ _
  rw [View.set_slice_whole, Rect.mem_set_unit]
  exact Iff.rfl

theorem cover4 (i : S8192x256.Idx) : ∃ t : Fin cfg4.N, (cfg4.win 3).flush t = true ∧ i ∈ ((cfg4.win 3).blk t).view.set := by
  have hi0 : (i 0).val < 8192 := (i 0).isLt
  have hi1 : (i 1).val < 256 := (i 1).isLt
  have hN : cfg4.N = 8 := N_4
  obtain ⟨t, ht⟩ : ∃ t : Fin cfg4.N, t.val = (i 0).val / 1024 := ⟨⟨(i 0).val / 1024, by omega⟩, rfl⟩
  obtain ⟨-, -, -, -, -, -, e30, e31⟩ := idx_facts4 t
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 256 ≤ (i 1).val ∧ (i 1).val < win4_3.index t (1 : Fin 2) * 256 + 256; omega

theorem arr4 (c : Dev nD) : (dat4 V c).arrAt 3 cfg4.N = (fun j => Spec.lin (Spec.relu (c2 (α := EReal) (n0 := 8192) (n1 := 512) (V c main_v20))) (c2 (α := EReal) (n0 := 512) (n1 := 256) (V c main_arg8)) (row0 (α := EReal) (n := 256) (V c main_v21)) (j 0) (j 1) : S8192x256.Idx → EReal) :=
  (dat4 V c).arrAt_eq_of_cover 3 (G4 V c) (fun t _ => flushed4_eq V c t) cover4

end Cert.KernelIdeal.HandValue

end
-- ==== Proof.KI.ValSim.lean ====
import proofs.«431399_j28879360098971_2_alg».proof.Proof.KI.Reg1
import proofs.«431399_j28879360098971_2_alg».proof.Proof.Spec
import Idealize.ShloMosaic.PureOps.Ideal.Laws
import Idealize.ShloMosaic.Lib.ValueIdx
import Idealize.ShloMosaic.Lib.Pipeline.Value
import Idealize.ShloMosaic.Lib.StableHlo.Predicate

set_option maxRecDepth 16384

noncomputable section

namespace Cert.KernelIdeal.HandValue

open Cert.KernelIdeal Cert.KernelIdeal.Gen Cert.KernelIdeal.Hand Cert.Spec Idealize.ShloMosaic Idealize.ShloMosaic.TcCoe Idealize.ShloMosaic.ValueIdx
open Idealize.ShloMosaic.Pipeline (Dat)

theorem word_row (a p : Nat) (ha : a < 16) (hp : p < 512) :
    (IntOp.addi (BitVec.ofNat 32 p) (Scalar.muli (BitVec.ofNat 32 a) 512#32)).toNat = 512 * a + p := by
  unfold IntOp.addi Scalar.muli IntOp.muli
  rw [BitVec.toNat_add, BitVec.toNat_mul, BitVec.toNat_ofNat, BitVec.toNat_ofNat, BitVec.toNat_ofNat]
  omega

theorem mask_iff (a b p q : Nat) (ha : a < 16) (hb : b < 16) (hp : p < 512) (hq : q < 512) :
    IntOp.cmpi .eq (IntOp.addi (BitVec.ofNat 32 p) (Scalar.muli (BitVec.ofNat 32 a) 512#32))
      (IntOp.addi (BitVec.ofNat 32 q) (Scalar.muli (BitVec.ofNat 32 b) 512#32)) = 1#1 ↔ 512 * a + p = 512 * b + q := by
  rw [StableHlo.Predicate.cmpi_eq_iff]
  constructor
  · intro h
    have := congrArg BitVec.toNat h
    rwa [word_row a p ha hp, word_row b q hb hq] at this
  · intro h
    apply BitVec.eq_of_toNat_eq
    rw [word_row a p ha hp, word_row b q hb hq, h]

theorem lhs_sim_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_sim_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_sim_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_sim_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

theorem transpose_sim (y : S512x512.Idx → EReal) (k q : Fin 512) :
    transpose S512x512 [1, 0] y transposes_S512x512_p1_0_S512x512 (ix2 k q) = y (ix2 q k) :=
  transpose_apply [1, 0] y transposes_S512x512_p1_0_S512x512 (ix2 k q) (ix2 q k) (fun b => match b with
    | ⟨0, _⟩ => rfl
    | ⟨1, _⟩ => rfl)

theorem matmul_sim (x y : S512x512.Idx → EReal) (p q : Fin 512) :
    FloatOps.matmul (F := Ideal) (φ₁ := .bf16) (φ₂ := .bf16) dot_S512x512_S512x512_S512x512_1_0_0_1_n_n none x
        (transpose S512x512 [1, 0] y transposes_S512x512_p1_0_S512x512) (constant (F := Ideal) S512x512 .f32 0x00000000#32) (ix2 p q)
      = ∑ k : Fin 512, x (ix2 p k) * y (ix2 q k) := by
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun a => Fin.ext (by
    match a with
    | ⟨0, _⟩ => exact lhs_sim_0 _ _
    | ⟨1, _⟩ => exact (lhs_sim_1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun a => Fin.ext (by
    match a with
    | ⟨0, _⟩ => exact (rhs_sim_0 _ _).trans hk
    | ⟨1, _⟩ => exact rhs_sim_1 _ _)
  rw [el, er, transpose_sim]

theorem bcast_col_sim (x : S512x1.Idx → EReal) (p q : Fin 512) :
    broadcastTo S512x512 x broadcasts_S512x1_S512x512 (ix2 p q) = x (ix2 p 0) :=
  broadcastTo_apply x broadcasts_S512x1_S512x512 (ix2 p q) (ix2 p 0) (fun a => match a with
    | ⟨0, _⟩ => by show p.val = if (512 : Nat) = 1 then 0 else p.val; rw [if_neg (by decide)]
    | ⟨1, _⟩ => by show 0 = if (1 : Nat) = 1 then 0 else q.val; rw [if_pos rfl])

theorem bcast_row_sim (x : S1x512.Idx → EReal) (p q : Fin 512) :
    broadcastTo S512x512 x broadcasts_S1x512_S512x512 (ix2 p q) = x (ix2 0 q) :=
  broadcastTo_apply x broadcasts_S1x512_S512x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

theorem sim_pay_apply (i : grid1.Coords) (v4 v8 : Vec Ideal S512x512 .bf16) (v12 : Vec Ideal S512x1 .f32) (v14 : Vec Ideal S1x512 .f32) (p q : Fin 512) :
    k1_pay1 (F := Ideal) i v4 v8 v12 v14 (ix2 p q)
      = if 512 * (i 0).val + p.val = 512 * (i 1).val + q.val then (0 : EReal)
        else Ideal.div (∑ k : Fin 512, v4 (ix2 p k) * v8 (ix2 q k)) (v12 (ix2 p 0) * v14 (ix2 0 q)) := by
  unfold k1_pay1
  simp only [shapeCast_self]
  rw [select_apply]
  have hm := mask_iff (i 0).val (i 1).val p.val q.val (i 0).isLt (i 1).isLt p.isLt q.isLt
  by_cases h : 512 * (i 0).val + p.val = 512 * (i 1).val + q.val
  · rw [if_pos h]
    have hc : cmpi .eq (addi (iota .tc S512x512 32 [0] iota_S512x512_d0_w32) (broadcast S512x512 (Scalar.muli (BitVec.ofNat 32 (i 0).val) 512#32)))
        (addi (iota .tc S512x512 32 [1] iota_S512x512_d1_w32) (broadcast S512x512 (Scalar.muli (BitVec.ofNat 32 (i 1).val) 512#32))) (ix2 p q) = 1#1 := by
      show IntOp.cmpi .eq (IntOp.addi (iota .tc S512x512 32 [0] iota_S512x512_d0_w32 (ix2 p q)) _) (IntOp.addi (iota .tc S512x512 32 [1] iota_S512x512_d1_w32 (ix2 p q)) _) = 1#1
      rw [iota_single_apply, iota_single_apply]
      exact hm.mpr h
    rw [hc, select_one, broadcast_apply]
    exact Ideal.ofBits_zero_f32
  · rw [if_neg h]
    have hc : cmpi .eq (addi (iota .tc S512x512 32 [0] iota_S512x512_d0_w32) (broadcast S512x512 (Scalar.muli (BitVec.ofNat 32 (i 0).val) 512#32)))
        (addi (iota .tc S512x512 32 [1] iota_S512x512_d1_w32) (broadcast S512x512 (Scalar.muli (BitVec.ofNat 32 (i 1).val) 512#32))) (ix2 p q) = 0#1 := by
      apply eq_zero_of_ne_one
      show ¬ IntOp.cmpi .eq (IntOp.addi (iota .tc S512x512 32 [0] iota_S512x512_d0_w32 (ix2 p q)) _) (IntOp.addi (iota .tc S512x512 32 [1] iota_S512x512_d1_w32 (ix2 p q)) _) = 1#1
      rw [iota_single_apply, iota_single_apply]
      exact fun hh => h (hm.mp hh)
    rw [hc, select_zero, divf_apply, mulf_apply, bcast_col_sim, bcast_row_sim]
    exact congrArg (fun s => Ideal.div s _) (matmul_sim v4 v8 p q)

variable (V : (c : Dev nD) → (b : Ref sig .tc) → Buf (Elt Ideal) ((c : Thread nD τ).loc b))

def simCl (c : Dev nD) (r s : Fin 8192) : EReal :=
  if r = s then (0 : EReal) else Ideal.div (∑ k : Fin 512, c2 (α := EReal) (n0 := 8192) (n1 := 512) (V c main_v2) r k * c2 (α := EReal) (n0 := 8192) (n1 := 512) (V c main_v2) s k) (c2 (α := EReal) (n0 := 8192) (n1 := 1) (V c main_v6) r 0 * row0 (α := EReal) (n := 8192) (V c main_v7) s)

def simArr (c : Dev nD) : S8192x8192.Idx → EReal := fun j => simCl V c (j 0) (j 1)

theorem idx_facts1 : ∀ t : Fin cfg1.N,
    win1_3.index t (0 : Fin 2) = (grid1.coords t 0).val ∧ win1_3.index t (1 : Fin 2) = (grid1.coords t 1).val
    ∧ win1_1.index t (0 : Fin 2) = (grid1.coords t 0).val ∧ win1_1.index t (1 : Fin 2) = 0
    ∧ win1_2.index t (0 : Fin 2) = 0 ∧ win1_2.index t (1 : Fin 2) = (grid1.coords t 1).val
    ∧ win1_0.index t (0 : Fin 2) = 0 ∧ win1_0.index t (1 : Fin 2) = 0 :=
  (by decide +kernel : ∀ t : Fin grid1.N, _)

theorem coords_facts1 : ∀ t : Fin cfg1.N, (grid1.coords t 0).val = t.val / 16 ∧ (grid1.coords t 1).val = t.val % 16 :=
  (by decide +kernel : ∀ t : Fin grid1.N, _)

theorem slice_rows (c : Dev nD) (t : Fin cfg1.N) (off : Fin 2 → Nat) (inb : ∀ a, off a + S512x512.size a ≤ S8192x512.size a)
    (p k : Fin 512) (R : Fin 8192) (h0 : off 0 + p.val = R.val) (h1 : off 1 = 0) :
    View.ld (iblk1 V c 0 t) (Rect.unit (s := S8192x512) off S512x512.size inb) (ix2 p k) = (V c main_v2 : S8192x512.Idx → EReal) (ix2 R k) := by
  obtain ⟨-, -, -, -, -, -, e00, e01⟩ := idx_facts1 t
  show (V c main_v2 : S8192x512.Idx → EReal) (((cfg1.win 0).blk t).view.emb ((Rect.unit (s := S8192x512) off S512x512.size inb).emb (ix2 p k))) = _
  refine congrArg _ (funext fun b => Fin.ext ?_)
  match b with
  | ⟨0, _⟩ =>
    show win1_0.index t (0 : Fin 2) * 8192 + 1 * (off 0 + 1 * p.val) = R.val
    rw [e00, Nat.zero_mul, Nat.zero_add, Nat.one_mul, Nat.one_mul]
    exact h0
  | ⟨1, _⟩ =>
    show win1_0.index t (1 : Fin 2) * 512 + 1 * (off 1 + 1 * k.val) = k.val
    rw [e01, h1, Nat.zero_mul, Nat.zero_add, Nat.one_mul, Nat.zero_add, Nat.one_mul]

theorem len_col (c : Dev nD) (t : Fin cfg1.N) (p : Fin 512) (R : Fin 8192) (h0 : 512 * (grid1.coords t 0).val + p.val = R.val) :
    iblk1 V c 1 t (ix2 p 0) = (V c main_v6 : S8192x1.Idx → EReal) (ix2 R 0) := by
  obtain ⟨-, -, e10, e11, -, -, -, -⟩ := idx_facts1 t
  show (V c main_v6 : S8192x1.Idx → EReal) (((cfg1.win 1).blk t).view.emb (ix2 p 0)) = _
  refine congrArg _ (funext fun b => Fin.ext ?_)
  match b with
  | ⟨0, _⟩ => show win1_1.index t (0 : Fin 2) * 512 + 1 * p.val = R.val; rw [e10]; omega
  | ⟨1, _⟩ => show win1_1.index t (1 : Fin 2) * 1 + 1 * 0 = 0; rw [e11]

theorem len_row (c : Dev nD) (t : Fin cfg1.N) (q : Fin 512) (S : Fin 8192) (h1 : 512 * (grid1.coords t 1).val + q.val = S.val) :
    iblk1 V c 2 t (ix2 0 q) = (V c main_v7 : S1x8192.Idx → EReal) (ix2 0 S) := by
  obtain ⟨-, -, -, -, e20, e21, -, -⟩ := idx_facts1 t
  show (V c main_v7 : S1x8192.Idx → EReal) (((cfg1.win 2).blk t).view.emb (ix2 0 q)) = _
  refine congrArg _ (funext fun b => Fin.ext ?_)
  match b with
  | ⟨0, _⟩ => show win1_2.index t (0 : Fin 2) * 1 + 1 * 0 = 0; rw [e20]
  | ⟨1, _⟩ => show win1_2.index t (1 : Fin 2) * 512 + 1 * q.val = S.val; rw [e21]; omega

theorem tile_entry (c : Dev nD) (t : Fin cfg1.N) (p q : Fin 512) (r s : Fin 8192)
    (hr : r.val = 512 * (grid1.coords t 0).val + p.val) (hs : s.val = 512 * (grid1.coords t 1).val + q.val) :
    k1_pay1 (F := Ideal) (grid1.coords t)
      (View.ld (iblk1 V c 0 t) (Rect.unit (s := S8192x512) (k1_off1 (grid1.coords t)) S512x512.size (k1_off1_inb (grid1.coords t))))
      (View.ld (iblk1 V c 0 t) (Rect.unit (s := S8192x512) (k1_off2 (grid1.coords t)) S512x512.size (k1_off2_inb (grid1.coords t))))
      (iblk1 V c 1 t) (iblk1 V c 2 t) (ix2 p q) = simCl V c r s := by
  rw [sim_pay_apply]
  unfold simCl
  have o1 : k1_off1 (grid1.coords t) 0 + p.val = r.val := by rw [k1_off1_eq, hr]; rfl
  have o1' : k1_off1 (grid1.coords t) 1 = 0 := by rw [k1_off1_eq]; rfl
  have o2 : k1_off2 (grid1.coords t) 0 + q.val = s.val := by rw [k1_off2_eq, hs]; rfl
  have o2' : k1_off2 (grid1.coords t) 1 = 0 := by rw [k1_off2_eq]; rfl
  by_cases h : 512 * (grid1.coords t 0).val + p.val = 512 * (grid1.coords t 1).val + q.val
  · rw [if_pos h, if_pos (Fin.ext (hr.trans (h.trans hs.symm)))]
  · rw [if_neg h, if_neg (fun e => h (hr.symm.trans ((congrArg Fin.val e).trans hs)))]
    simp only [slice_rows V c t _ _ p _ r o1 o1', slice_rows V c t _ _ q _ s o2 o2', len_col V c t p r hr.symm, len_row V c t q s hs.symm]

theorem flushed1_eq (c : Dev nD) (t : Fin cfg1.N) :
    (dat1 V c).flushed 3 t = ((cfg1.win 3).blk t).view.read (Elt Ideal) (simArr V c) := by
  show (cfg1.win 3).cut (grid1.coords t) ((dat1 V c).after 3 t) = _
  rw [after1_3]
  obtain ⟨e30, e31, -, -, -, -, -, -⟩ := idx_facts1 t
  funext y
  obtain ⟨p, q, rfl⟩ : ∃ (p q : Fin 512), y = ix2 p q := ⟨y 0, y 1, eq_ix2 y⟩
  have hJ0 : ((((cfg1.win 3).blk t).view.emb (ix2 p q)) 0).val = 512 * (grid1.coords t 0).val + p.val := by
    show win1_3.index t (0 : Fin 2) * 512 + 1 * p.val = _; rw [e30]; omega
  have hJ1 : ((((cfg1.win 3).blk t).view.emb (ix2 p q)) 1).val = 512 * (grid1.coords t 1).val + q.val := by
    show win1_3.index t (1 : Fin 2) * 512 + 1 * q.val = _; rw [e31]; omega
  exact tile_entry V c t p q _ _ hJ0 hJ1

theorem mem_blk1 (t : Fin cfg1.N) (i : S8192x8192.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v8).slice (win1_3.rect t)).set ↔ _
  rw [View.set_slice_whole, Rect.mem_set_unit]
  exact Iff.rfl

theorem cover1 (i : S8192x8192.Idx) : ∃ t : Fin cfg1.N, (cfg1.win 3).flush t = true ∧ i ∈ ((cfg1.win 3).blk t).view.set := by
  have hi0 : (i 0).val < 8192 := (i 0).isLt
  have hi1 : (i 1).val < 8192 := (i 1).isLt
  have hN : cfg1.N = 256 := N_1
  obtain ⟨t, ht⟩ : ∃ t : Fin cfg1.N, t.val = (i 0).val / 512 * 16 + (i 1).val / 512 := ⟨⟨(i 0).val / 512 * 16 + (i 1).val / 512, by rw [hN]; omega⟩, rfl⟩
  obtain ⟨e30, e31, -, -, -, -, -, -⟩ := idx_facts1 t
  obtain ⟨c0, c1⟩ := coords_facts1 t
  refine ⟨t, flush1_3 t, ?_⟩
  rw [mem_blk1]
  intro a
  match a with
  | ⟨0, _⟩ =>
    show win1_3.index t (0 : Fin 2) * 512 ≤ (i 0).val ∧ (i 0).val < win1_3.index t (0 : Fin 2) * 512 + 512
    rw [e30, c0, ht]; omega
  | ⟨1, _⟩ =>
    show win1_3.index t (1 : Fin 2) * 512 ≤ (i 1).val ∧ (i 1).val < win1_3.index t (1 : Fin 2) * 512 + 512
    rw [e31, c1, ht]; omega

theorem arr1 (c : Dev nD) : (dat1 V c).arrAt 3 cfg1.N = fun j => simCl V c (j 0) (j 1) :=
  (dat1 V c).arrAt_eq_of_cover 3 (simArr V c) (fun t _ => flushed1_eq V c t) cover1

end Cert.KernelIdeal.HandValue

end
-- ==== Proof.KI.ValHost.lean ====
import proofs.«431399_j28879360098971_2_alg».proof.Proof.Gen.KernelIdeal.Launch
import proofs.«431399_j28879360098971_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Cert.KernelIdeal Cert.KernelIdeal.Gen Cert.Spec Idealize.ShloMosaic Idealize.ShloMosaic.ValueIdx

def biasRow512 (b : S512.Idx → EReal) : S1x512.Idx → EReal := shapeCast S1x512 b shapeCasts_S512_S1x512

def biasRow256 (b : S256.Idx → EReal) : S1x256.Idx → EReal := shapeCast S1x256 b shapeCasts_S256_S1x256

theorem row0_biasRow512 (b : S512.Idx → EReal) : row0 (biasRow512 b) = c1 b :=
  funext fun j => shapeCast_a_1a_apply b shapeCasts_S512_S1x512 0 j

theorem row0_biasRow256 (b : S256.Idx → EReal) : row0 (biasRow256 b) = c1 b :=
  funext fun j => shapeCast_a_1a_apply b shapeCasts_S256_S1x256 0 j

def n6 (z : S8192x512.Idx → EReal) : S8192x1.Idx → EReal :=
  Host.sqrt (F := Ideal) (φ := .f32) (broadcastInDim S8192x1 ![0] bcast_S8192_S8192x1_0
    (Host.reduceAdd (F := Ideal) (φ := .f32) (mulf (F := Ideal) (φ := .f32) z z) (constant (F := Ideal) S_ .f32 0x00000000#32) reducesTo_S8192x512_S8192_d1 h_S_))

def n7 (z : S8192x512.Idx → EReal) : S1x8192.Idx → EReal := shapeCast S1x8192 (n6 z) shapeCasts_S8192x1_S1x8192

theorem n6_apply (z : S8192x512.Idx → EReal) (i : Fin 8192) : n6 z (ix2 i 0) = rowNorm (c2 z) i := by
  unfold n6
  show Ideal.sqrt (broadcastInDim S8192x1 ![0] bcast_S8192_S8192x1_0
    (Host.reduceAdd (F := Ideal) (φ := .f32) (mulf (F := Ideal) (φ := .f32) z z) (constant (F := Ideal) S_ .f32 0x00000000#32) reducesTo_S8192x512_S8192_d1 h_S_) (ix2 i 0)) = _
  rw [broadcastInDim_apply ![0] bcast_S8192_S8192x1_0 _ (ix2 i 0) (ix1 i) (fun a => match a with
    | ⟨0, _⟩ => by show i.val = if (8192 : Nat) = 1 then 0 else i.val; rw [if_neg (by decide)])]
  simp only [Host.reduceAdd, Ideal.hostReduceAdd_def]
  rw [Ideal.hostReduceAdd_single reducesTo_S8192x512_S8192_d1 (by decide)]
  unfold rowNorm
  refine congrArg Ideal.sqrt ?_
  show Ideal.ofBits .f32 0x00000000#32 + _ = _
  rw [Ideal.ofBits_zero_f32]
  refine congrArg (0 + ·) (Finset.sum_congr rfl fun k _ => ?_)
  exact congrArg (fun j => z j * z j) (funext fun a => Fin.ext (by match a with | ⟨0, _⟩ => rfl | ⟨1, _⟩ => rfl))

theorem n7_apply (z : S8192x512.Idx → EReal) (i : Fin 8192) : n7 z (ix2 0 i) = rowNorm (c2 z) i := by
  unfold n7
  rw [shapeCast_apply (n6 z) shapeCasts_S8192x1_S1x8192 (ix2 0 i) (ix2 i 0) (by
    rw [Shape.rowMajor_val_two, Shape.rowMajor_val_two]
    show i.val * 1 + 0 = 0 * 8192 + i.val
    omega)]
  exact n6_apply z i

theorem truncf_bf16_eq {s : Shape} (x : s.Idx → EReal) :
    truncf (F := Ideal) (φ := .f32) .bf16 x bitsLt_bf16_f32 = x := rfl

end Cert.KernelIdeal.HandValue

end
-- ==== Proof.KI.ValAdj.lean ====
import proofs.«431399_j28879360098971_2_alg».proof.Proof.KI.Reg3
import proofs.«431399_j28879360098971_2_alg».proof.Proof.KI.Reg5
import proofs.«431399_j28879360098971_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Cert.Spec Idealize.ShloMosaic Idealize.ShloMosaic.TcCoe Idealize.ShloMosaic.ValueIdx
open Idealize.ShloMosaic.Pipeline (Dat Cfg Window)

def blockSum {D : ℕ} (A : Fin 8192 → Fin 8192 → EReal) (h : Fin 8192 → Fin D → EReal) (i : Fin 8192) (f : Fin D)
    (q : Fin 4) : EReal :=
  ∑ k : Fin 2048, A i ⟨q.val * 2048 + k.val, by omega⟩ * h ⟨q.val * 2048 + k.val, by omega⟩ f

theorem denseMul_eq_blockSums {D : ℕ} (A : Fin 8192 → Fin 8192 → EReal) (h : Fin 8192 → Fin D → EReal) (i : Fin 8192)
    (f : Fin D) :
    Spec.denseMul A h i f = (((0 + blockSum A h i f 0) + blockSum A h i f 1) + blockSum A h i f 2) + blockSum A h i f 3 := by
  unfold Spec.denseMul blockSum
  simp only [zero_add]

section Region3

variable (V : (c : Dev nD) → (b : Ref sig .tc) → Buf (Elt Ideal) ((c : Thread nD τ).loc b))

theorem lhs3_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhs3_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem rhs3_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem rhs3_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

theorem k3_pay1_apply (j : S1024x512.Idx) : k3_pay1 (F := Ideal) j = 0 := by
  unfold k3_pay1
  simp only [shapeCast_self]
  show Ideal.ofBits .f32 0x00000000#32 = 0
  exact Ideal.ofBits_zero_f32

theorem k3_pay2_apply (v3 : Vec Ideal S1024x512 .f32) (v4 : Vec Ideal S1024x2048 .bf16) (v6 : Vec Ideal S2048x512 .bf16)
    (p : Fin 1024) (f : Fin 512) :
    k3_pay2 v3 v4 v6 (ix2 p f) = v3 (ix2 p f) + ∑ k : Fin 2048, v4 (ix2 p k) * v6 (ix2 k f) := by
  unfold k3_pay2
  simp only [shapeCast_self]
  refine (addf_apply _ _ _).trans ?_
  refine congrArg (v3 (ix2 p f) + ·) ?_
  refine (Ideal.matmul_constant_zero_apply (φ₁ := .bf16) (φ₂ := .bf16) dot_S1024x2048_S2048x512_S1024x512_1_0_0_1_n_n none v4 v6 (ix2 p f)).trans ?_
  rw [← Equiv.sum_comp (ValueIdx.contrEquiv1 dot_S1024x2048_S2048x512_S1024x512_1_0_0_1_n_n 2048 rfl rfl).symm]
  refine Finset.sum_congr rfl fun k _ => ?_
  have hk := ValueIdx.contrEquiv1_symm_val dot_S1024x2048_S2048x512_S1024x512_1_0_0_1_n_n 2048 rfl rfl k
  have el : dot_S1024x2048_S2048x512_S1024x512_1_0_0_1_n_n.lhsIdx (ix2 p f) ((ValueIdx.contrEquiv1 dot_S1024x2048_S2048x512_S1024x512_1_0_0_1_n_n 2048 rfl rfl).symm k) = ix2 p k := funext fun a => Fin.ext (by
    match a with
    | ⟨0, _⟩ => exact lhs3_0 _ _
    | ⟨1, _⟩ => exact (lhs3_1 _ _).trans hk)
  have er : dot_S1024x2048_S2048x512_S1024x512_1_0_0_1_n_n.rhsIdx (ix2 p f) ((ValueIdx.contrEquiv1 dot_S1024x2048_S2048x512_S1024x512_1_0_0_1_n_n 2048 rfl rfl).symm k) = ix2 k f := funext fun a => Fin.ext (by
    match a with
    | ⟨0, _⟩ => exact (rhs3_0 _ _).trans hk
    | ⟨1, _⟩ => exact rhs3_1 _ _)
  rw [el, er]

abbrev adj3 (c : Dev nD) : Fin 8192 → Fin 8192 → EReal := c2 (α := EReal) (n0 := 8192) (n1 := 8192) (V c main_v18)
abbrev hid3 (c : Dev nD) : Fin 8192 → Fin 512 → EReal := c2 (α := EReal) (n0 := 8192) (n1 := 512) (V c main_v19)

abbrev ablk3 (c : Dev nD) (t : Fin cfg3.N) : Vec Ideal S1024x2048 .bf16 := iblk3 V c 0 t
abbrev hblk3 (c : Dev nD) (t : Fin cfg3.N) : Vec Ideal S2048x512 .bf16 := iblk3 V c 1 t

theorem idx3 : ∀ t : Fin cfg3.N, win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = t.val / 4 ∧ win3_2.index t (1 : Fin 2) = 0 ∧ t.val < 32 :=
  (by decide +kernel : ∀ t : Fin grid3.N, _)

theorem onto3 : ∀ a : Fin 8, ∃ t : Fin cfg3.N, t.val % 4 = 3 ∧ win3_2.index t (0 : Fin 2) = a.val ∧ win3_2.index t (1 : Fin 2) = 0 :=
  (by decide +kernel : ∀ a : Fin 8, ∃ t : Fin grid3.N, t.val % 4 = 3 ∧ win3_2.index t (0 : Fin 2) = a.val ∧ win3_2.index t (1 : Fin 2) = 0)

theorem iblk3_0_apply (c : Dev nD) (t : Fin cfg3.N) (a : Fin 8) (q : Fin 4) (ht : t.val = 4 * a.val + q.val)
    (p : Fin 1024) (k : Fin 2048) :
    ablk3 V c t (ix2 p k)
      = adj3 V c ⟨a.val * 1024 + p.val, by omega⟩ ⟨q.val * 2048 + k.val, by omega⟩ := by
  obtain ⟨e0, e1, e2, e3, e4, e5, e6⟩ := idx3 t
  show V c main_v18 (((cfg3.win 0).blk t).view.emb (ix2 p k)) = V c main_v18 (ix2 _ _)
  refine congrArg (V c main_v18) ?_
  funext d; apply Fin.ext
  match d with
  | ⟨0, _⟩ => show win3_0.index t (0 : Fin 2) * 1024 + 1 * p.val = a.val * 1024 + p.val; omega
  | ⟨1, _⟩ => show win3_0.index t (1 : Fin 2) * 2048 + 1 * k.val = q.val * 2048 + k.val; omega

theorem iblk3_1_apply (c : Dev nD) (t : Fin cfg3.N) (a : Fin 8) (q : Fin 4) (ht : t.val = 4 * a.val + q.val)
    (k : Fin 2048) (f : Fin 512) :
    hblk3 V c t (ix2 k f)
      = hid3 V c ⟨q.val * 2048 + k.val, by omega⟩ f := by
  obtain ⟨e0, e1, e2, e3, e4, e5, e6⟩ := idx3 t
  show V c main_v19 (((cfg3.win 1).blk t).view.emb (ix2 k f)) = V c main_v19 (ix2 _ _)
  refine congrArg (V c main_v19) ?_
  funext d; apply Fin.ext
  match d with
  | ⟨0, _⟩ => show win3_1.index t (0 : Fin 2) * 2048 + 1 * k.val = q.val * 2048 + k.val; omega
  | ⟨1, _⟩ => show win3_1.index t (1 : Fin 2) * 512 + 1 * f.val = f.val; omega

theorem blocks3_sum (c : Dev nD) (t : Fin cfg3.N) (a : Fin 8) (q : Fin 4) (ht : t.val = 4 * a.val + q.val)
    (p : Fin 1024) (f : Fin 512) :
    (∑ k : Fin 2048, ablk3 V c t (ix2 p k) * hblk3 V c t (ix2 k f))
      = blockSum (adj3 V c) (hid3 V c) ⟨a.val * 1024 + p.val, by omega⟩ f q := by
  unfold blockSum
  refine Finset.sum_congr rfl fun k _ => ?_
  rw [iblk3_0_apply V c t a q ht p k, iblk3_1_apply V c t a q ht k f]

theorem acc3_reset (c : Dev nD) (n : ℕ) (hn : n < cfg3.N) (a : Fin 8) (ht : n = 4 * a.val) (p : Fin 1024) (f : Fin 512) :
    acc3 V c n (ix2 p f) = 0 + blockSum (adj3 V c) (hid3 V c) ⟨a.val * 1024 + p.val, by omega⟩ f 0 := by
  refine (congrFun (acc3_eq V c ⟨n, hn⟩) (ix2 p f)).trans ?_
  refine (k3_pay2_apply (if (⟨n, hn⟩ : Fin cfg3.N).val % 4 = 0 then k3_pay1 (F := Ideal) else acc3 V c ((⟨n, hn⟩ : Fin cfg3.N).val - 1))
    (ablk3 V c ⟨n, hn⟩) (hblk3 V c ⟨n, hn⟩) p f).trans ?_
  refine congrArg₂ (· + ·) ?_ (blocks3_sum V c ⟨n, hn⟩ a 0 (by show n = 4 * a.val + 0; omega) p f)
  rw [if_pos (by show n % 4 = 0; omega)]
  exact k3_pay1_apply _

theorem acc3_add (c : Dev nD) (n m : ℕ) (hn : n < cfg3.N) (a : Fin 8) (q : Fin 4) (hq : q.val ≠ 0)
    (ht : n = 4 * a.val + q.val) (hm : n = m + 1) (p : Fin 1024) (f : Fin 512) :
    acc3 V c n (ix2 p f)
      = acc3 V c m (ix2 p f) + blockSum (adj3 V c) (hid3 V c) ⟨a.val * 1024 + p.val, by omega⟩ f q := by
  refine (congrFun (acc3_eq V c ⟨n, hn⟩) (ix2 p f)).trans ?_
  refine (k3_pay2_apply (if (⟨n, hn⟩ : Fin cfg3.N).val % 4 = 0 then k3_pay1 (F := Ideal) else acc3 V c ((⟨n, hn⟩ : Fin cfg3.N).val - 1))
    (ablk3 V c ⟨n, hn⟩) (hblk3 V c ⟨n, hn⟩) p f).trans ?_
  refine congrArg₂ (· + ·) ?_ (blocks3_sum V c ⟨n, hn⟩ a q ht p f)
  rw [if_neg (by show ¬ n % 4 = 0; omega), show (⟨n, hn⟩ : Fin cfg3.N).val - 1 = m from (by show n - 1 = m; omega)]

theorem acc3_last (c : Dev nD) (n : ℕ) (hn : n < cfg3.N) (a : Fin 8) (ht : n = 4 * a.val + 3) (p : Fin 1024) (f : Fin 512) :
    acc3 V c n (ix2 p f) = Spec.denseMul (adj3 V c) (hid3 V c) ⟨a.val * 1024 + p.val, by omega⟩ f := by
  rw [denseMul_eq_blockSums,
    acc3_add V c n (4 * a.val + 2) hn a 3 (by decide) ht (by omega) p f,
    acc3_add V c (4 * a.val + 2) (4 * a.val + 1) (by omega) a 2 (by decide) rfl rfl p f,
    acc3_add V c (4 * a.val + 1) (4 * a.val) (by omega) a 1 (by decide) rfl rfl p f,
    acc3_reset V c (4 * a.val) (by omega) a rfl p f]

abbrev G3 (c : Dev nD) : S8192x512.Idx → EReal := fun j => Spec.denseMul (adj3 V c) (hid3 V c) (j 0) (j 1)

theorem flushed3_eq (c : Dev nD) (t : Fin cfg3.N) (hf : (cfg3.win 2).flush t = true) :
    (dat3 V c).flushed 2 t = ((cfg3.win 2).blk t).view.read (Elt Ideal) (G3 V c) := by
  have ht : t.val % 4 = 3 := (flush3_2 t).mp hf
  obtain ⟨e0, e1, e2, e3, e4, e5, e6⟩ := idx3 t
  show (cfg3.win 2).cut (grid3.coords t) ((dat3 V c).after 2 t) = _
  rw [after3_2 V c t ht]
  funext y
  obtain ⟨p, f, rfl⟩ : ∃ (p : Fin 1024) (f : Fin 512), y = ix2 p f := ⟨y 0, y 1, eq_ix2 y⟩
  show acc3 V c t.val (ix2 p f) = G3 V c (((cfg3.win 2).blk t).view.emb (ix2 p f))
  refine (acc3_last V c t.val t.isLt ⟨t.val / 4, by omega⟩ (by show t.val = 4 * (t.val / 4) + 3; omega) p f).trans ?_
  refine congrArg₂ (Spec.denseMul (adj3 V c) (hid3 V c)) (Fin.ext ?_) (Fin.ext ?_)
  · show t.val / 4 * 1024 + p.val = win3_2.index t (0 : Fin 2) * 1024 + 1 * p.val; omega
  · show f.val = win3_2.index t (1 : Fin 2) * 512 + 1 * f.val; omega

theorem mem_blk3 (t : Fin cfg3.N) (i : S8192x512.Idx) :
    i ∈ ((cfg3.win 2).blk t).view.set ↔ ∀ a : Fin 2, win3_2.index t a * S1024x512.size a ≤ (i a).val ∧ (i a).val < win3_2.index t a * S1024x512.size a + S1024x512.size a := by
  show i ∈ ((View.whole main_v20).slice (win3_2.rect t)).set ↔ _
  rw [View.set_slice_whole, Rect.mem_set_unit]
  exact Iff.rfl

theorem cover3 (i : S8192x512.Idx) :
    ∃ t : Fin cfg3.N, (cfg3.win 2).flush t = true ∧ i ∈ ((cfg3.win 2).blk t).view.set := by
  have hi0 : (i 0).val < 8192 := (i 0).isLt
  have hi1 : (i 1).val < 512 := (i 1).isLt
  obtain ⟨t, h3, q0, q1⟩ := onto3 ⟨(i 0).val / 1024, by omega⟩
  have q0' : win3_2.index t (0 : Fin 2) = (i 0).val / 1024 := q0
  refine ⟨t, (flush3_2 t).mpr h3, ?_⟩
  rw [mem_blk3]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 512 ≤ (i 1).val ∧ (i 1).val < win3_2.index t (1 : Fin 2) * 512 + 512; omega

theorem arr3 (c : Dev nD) : (dat3 V c).arrAt 2 cfg3.N = (fun j => Spec.denseMul (c2 (V c main_v18)) (c2 (V c main_v19)) (j 0) (j 1) : S8192x512.Idx → EReal) :=
  (dat3 V c).arrAt_eq_of_cover 2 (G3 V c) (fun t hf => flushed3_eq V c t hf) cover3

end Region3

section Region5

variable (V : (c : Dev nD) → (b : Ref sig .tc) → Buf (Elt Ideal) ((c : Thread nD τ).loc b))

theorem lhs5_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs5_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs5_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs5_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

theorem k5_pay1_apply (j : S1024x256.Idx) : k5_pay1 (F := Ideal) j = 0 := by
  unfold k5_pay1
  simp only [shapeCast_self]
  show Ideal.ofBits .f32 0x00000000#32 = 0
  exact Ideal.ofBits_zero_f32

theorem k5_pay2_apply (v3 : Vec Ideal S1024x256 .f32) (v4 : Vec Ideal S1024x2048 .bf16) (v6 : Vec Ideal S2048x256 .bf16)
    (p : Fin 1024) (f : Fin 256) :
    k5_pay2 v3 v4 v6 (ix2 p f) = v3 (ix2 p f) + ∑ k : Fin 2048, v4 (ix2 p k) * v6 (ix2 k f) := by
  unfold k5_pay2
  simp only [shapeCast_self]
  refine (addf_apply _ _ _).trans ?_
  refine congrArg (v3 (ix2 p f) + ·) ?_
  refine (Ideal.matmul_constant_zero_apply (φ₁ := .bf16) (φ₂ := .bf16) dot_S1024x2048_S2048x256_S1024x256_1_0_0_1_n_n none v4 v6 (ix2 p f)).trans ?_
  rw [← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 p f) ((ValueIdx.contrEquiv1 dot_S1024x2048_S2048x256_S1024x256_1_0_0_1_n_n 2048 rfl rfl).symm k) = ix2 p k := funext fun a => Fin.ext (by
    match a with
    | ⟨0, _⟩ => exact lhs5_0 _ _
    | ⟨1, _⟩ => exact (lhs5_1 _ _).trans hk)
  have er : dot_S1024x2048_S2048x256_S1024x256_1_0_0_1_n_n.rhsIdx (ix2 p f) ((ValueIdx.contrEquiv1 dot_S1024x2048_S2048x256_S1024x256_1_0_0_1_n_n 2048 rfl rfl).symm k) = ix2 k f := funext fun a => Fin.ext (by
    match a with
    | ⟨0, _⟩ => exact (rhs5_0 _ _).trans hk
    | ⟨1, _⟩ => exact rhs5_1 _ _)
  rw [el, er]

abbrev adj5 (c : Dev nD) : Fin 8192 → Fin 8192 → EReal := c2 (α := EReal) (n0 := 8192) (n1 := 8192) (V c main_v18)
abbrev hid5 (c : Dev nD) : Fin 8192 → Fin 256 → EReal := c2 (α := EReal) (n0 := 8192) (n1 := 256) (V c main_v23)

abbrev ablk5 (c : Dev nD) (t : Fin cfg5.N) : Vec Ideal S1024x2048 .bf16 := iblk5 V c 0 t
abbrev hblk5 (c : Dev nD) (t : Fin cfg5.N) : Vec Ideal S2048x256 .bf16 := iblk5 V c 1 t

theorem idx5 : ∀ t : Fin cfg5.N, win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = t.val / 4 ∧ win5_2.index t (1 : Fin 2) = 0 ∧ t.val < 32 :=
  (by decide +kernel : ∀ t : Fin grid5.N, _)

theorem onto5 : ∀ a : Fin 8, ∃ t : Fin cfg5.N, t.val % 4 = 3 ∧ win5_2.index t (0 : Fin 2) = a.val ∧ win5_2.index t (1 : Fin 2) = 0 :=
  (by decide +kernel : ∀ a : Fin 8, ∃ t : Fin grid5.N, t.val % 4 = 3 ∧ win5_2.index t (0 : Fin 2) = a.val ∧ win5_2.index t (1 : Fin 2) = 0)

theorem iblk5_0_apply (c : Dev nD) (t : Fin cfg5.N) (a : Fin 8) (q : Fin 4) (ht : t.val = 4 * a.val + q.val)
    (p : Fin 1024) (k : Fin 2048) :
    ablk5 V c t (ix2 p k)
      = adj5 V c ⟨a.val * 1024 + p.val, by omega⟩ ⟨q.val * 2048 + k.val, by omega⟩ := by
  obtain ⟨e0, e1, e2, e3, e4, e5, e6⟩ := idx5 t
  show V c main_v18 (((cfg5.win 0).blk t).view.emb (ix2 p k)) = V c main_v18 (ix2 _ _)
  refine congrArg (V c main_v18) ?_
  funext d; apply Fin.ext
  match d with
  | ⟨0, _⟩ => show win5_0.index t (0 : Fin 2) * 1024 + 1 * p.val = a.val * 1024 + p.val; omega
  | ⟨1, _⟩ => show win5_0.index t (1 : Fin 2) * 2048 + 1 * k.val = q.val * 2048 + k.val; omega

theorem iblk5_1_apply (c : Dev nD) (t : Fin cfg5.N) (a : Fin 8) (q : Fin 4) (ht : t.val = 4 * a.val + q.val)
    (k : Fin 2048) (f : Fin 256) :
    hblk5 V c t (ix2 k f)
      = hid5 V c ⟨q.val * 2048 + k.val, by omega⟩ f := by
  obtain ⟨e0, e1, e2, e3, e4, e5, e6⟩ := idx5 t
  show V c main_v23 (((cfg5.win 1).blk t).view.emb (ix2 k f)) = V c main_v23 (ix2 _ _)
  refine congrArg (V c main_v23) ?_
  funext d; apply Fin.ext
  match d with
  | ⟨0, _⟩ => show win5_1.index t (0 : Fin 2) * 2048 + 1 * k.val = q.val * 2048 + k.val; omega
  | ⟨1, _⟩ => show win5_1.index t (1 : Fin 2) * 256 + 1 * f.val = f.val; omega

theorem blocks5_sum (c : Dev nD) (t : Fin cfg5.N) (a : Fin 8) (q : Fin 4) (ht : t.val = 4 * a.val + q.val)
    (p : Fin 1024) (f : Fin 256) :
    (∑ k : Fin 2048, ablk5 V c t (ix2 p k) * hblk5 V c t (ix2 k f))
      = blockSum (adj5 V c) (hid5 V c) ⟨a.val * 1024 + p.val, by omega⟩ f q := by
  unfold blockSum
  refine Finset.sum_congr rfl fun k _ => ?_
  rw [iblk5_0_apply V c t a q ht p k, iblk5_1_apply V c t a q ht k f]

theorem acc5_reset (c : Dev nD) (n : ℕ) (hn : n < cfg5.N) (a : Fin 8) (ht : n = 4 * a.val) (p : Fin 1024) (f : Fin 256) :
    acc5 V c n (ix2 p f) = 0 + blockSum (adj5 V c) (hid5 V c) ⟨a.val * 1024 + p.val, by omega⟩ f 0 := by
  refine (congrFun (acc5_eq V c ⟨n, hn⟩) (ix2 p f)).trans ?_
  refine (k5_pay2_apply (if (⟨n, hn⟩ : Fin cfg5.N).val % 4 = 0 then k5_pay1 (F := Ideal) else acc5 V c ((⟨n, hn⟩ : Fin cfg5.N).val - 1))
    (ablk5 V c ⟨n, hn⟩) (hblk5 V c ⟨n, hn⟩) p f).trans ?_
  refine congrArg₂ (· + ·) ?_ (blocks5_sum V c ⟨n, hn⟩ a 0 (by show n = 4 * a.val + 0; omega) p f)
  rw [if_pos (by show n % 4 = 0; omega)]
  exact k5_pay1_apply _

theorem acc5_add (c : Dev nD) (n m : ℕ) (hn : n < cfg5.N) (a : Fin 8) (q : Fin 4) (hq : q.val ≠ 0)
    (ht : n = 4 * a.val + q.val) (hm : n = m + 1) (p : Fin 1024) (f : Fin 256) :
    acc5 V c n (ix2 p f)
      = acc5 V c m (ix2 p f) + blockSum (adj5 V c) (hid5 V c) ⟨a.val * 1024 + p.val, by omega⟩ f q := by
  refine (congrFun (acc5_eq V c ⟨n, hn⟩) (ix2 p f)).trans ?_
  refine (k5_pay2_apply (if (⟨n, hn⟩ : Fin cfg5.N).val % 4 = 0 then k5_pay1 (F := Ideal) else acc5 V c ((⟨n, hn⟩ : Fin cfg5.N).val - 1))
    (ablk5 V c ⟨n, hn⟩) (hblk5 V c ⟨n, hn⟩) p f).trans ?_
  refine congrArg₂ (· + ·) ?_ (blocks5_sum V c ⟨n, hn⟩ a q ht p f)
  rw [if_neg (by show ¬ n % 4 = 0; omega), show (⟨n, hn⟩ : Fin cfg5.N).val - 1 = m from (by show n - 1 = m; omega)]

theorem acc5_last (c : Dev nD) (n : ℕ) (hn : n < cfg5.N) (a : Fin 8) (ht : n = 4 * a.val + 3) (p : Fin 1024) (f : Fin 256) :
    acc5 V c n (ix2 p f) = Spec.denseMul (adj5 V c) (hid5 V c) ⟨a.val * 1024 + p.val, by omega⟩ f := by
  rw [denseMul_eq_blockSums,
    acc5_add V c n (4 * a.val + 2) hn a 3 (by decide) ht (by omega) p f,
    acc5_add V c (4 * a.val + 2) (4 * a.val + 1) (by omega) a 2 (by decide) rfl rfl p f,
    acc5_add V c (4 * a.val + 1) (4 * a.val) (by omega) a 1 (by decide) rfl rfl p f,
    acc5_reset V c (4 * a.val) (by omega) a rfl p f]

abbrev G5 (c : Dev nD) : S8192x256.Idx → EReal := fun j => Spec.denseMul (adj5 V c) (hid5 V c) (j 0) (j 1)

theorem flushed5_eq (c : Dev nD) (t : Fin cfg5.N) (hf : (cfg5.win 2).flush t = true) :
    (dat5 V c).flushed 2 t = ((cfg5.win 2).blk t).view.read (Elt Ideal) (G5 V c) := by
  have ht : t.val % 4 = 3 := (flush5_2 t).mp hf
  obtain ⟨e0, e1, e2, e3, e4, e5, e6⟩ := idx5 t
  show (cfg5.win 2).cut (grid5.coords t) ((dat5 V c).after 2 t) = _
  rw [after5_2 V c t ht]
  funext y
  obtain ⟨p, f, rfl⟩ : ∃ (p : Fin 1024) (f : Fin 256), y = ix2 p f := ⟨y 0, y 1, eq_ix2 y⟩
  show acc5 V c t.val (ix2 p f) = G5 V c (((cfg5.win 2).blk t).view.emb (ix2 p f))
  refine (acc5_last V c t.val t.isLt ⟨t.val / 4, by omega⟩ (by show t.val = 4 * (t.val / 4) + 3; omega) p f).trans ?_
  refine congrArg₂ (Spec.denseMul (adj5 V c) (hid5 V c)) (Fin.ext ?_) (Fin.ext ?_)
  · show t.val / 4 * 1024 + p.val = win5_2.index t (0 : Fin 2) * 1024 + 1 * p.val; omega
  · show f.val = win5_2.index t (1 : Fin 2) * 256 + 1 * f.val; omega

theorem mem_blk5 (t : Fin cfg5.N) (i : S8192x256.Idx) :
    i ∈ ((cfg5.win 2).blk t).view.set ↔ ∀ a : Fin 2, win5_2.index t a * S1024x256.size a ≤ (i a).val ∧ (i a).val < win5_2.index t a * S1024x256.size a + S1024x256.size a := by
  show i ∈ ((View.whole main_v24).slice (win5_2.rect t)).set ↔ _
  rw [View.set_slice_whole, Rect.mem_set_unit]
  exact Iff.rfl

theorem cover5 (i : S8192x256.Idx) :
    ∃ t : Fin cfg5.N, (cfg5.win 2).flush t = true ∧ i ∈ ((cfg5.win 2).blk t).view.set := by
  have hi0 : (i 0).val < 8192 := (i 0).isLt
  have hi1 : (i 1).val < 256 := (i 1).isLt
  obtain ⟨t, h3, q0, q1⟩ := onto5 ⟨(i 0).val / 1024, by omega⟩
  have q0' : win5_2.index t (0 : Fin 2) = (i 0).val / 1024 := q0
  refine ⟨t, (flush5_2 t).mpr h3, ?_⟩
  rw [mem_blk5]
  intro a
  match a with
  | ⟨0, _⟩ => show win5_2.index t (0 : Fin 2) * 1024 ≤ (i 0).val ∧ (i 0).val < win5_2.index t (0 : Fin 2) * 1024 + 1024; omega
  | ⟨1, _⟩ => show win5_2.index t (1 : Fin 2) * 256 ≤ (i 1).val ∧ (i 1).val < win5_2.index t (1 : Fin 2) * 256 + 256; omega

theorem arr5 (c : Dev nD) : (dat5 V c).arrAt 2 cfg5.N = (fun j => Spec.denseMul (c2 (V c main_v18)) (c2 (V c main_v23)) (j 0) (j 1) : S8192x256.Idx → EReal) :=
  (dat5 V c).arrAt_eq_of_cover 2 (G5 V c) (fun t hf => flushed5_eq V c t hf) cover5

end Region5

end Cert.KernelIdeal.HandValue

end
-- ==== Proof.KI.ValAdjMat.lean ====
import proofs.«431399_j28879360098971_2_alg».proof.Proof.Gen.KernelIdeal.Launch
import proofs.«431399_j28879360098971_2_alg».proof.Proof.Spec
import Idealize.ShloMosaic.Lib.ValueIdx
import Idealize.ShloMosaic.Lib.ValueIdxRank1
import Idealize.ShloMosaic.Lib.Pipeline.Value
import Idealize.ShloMosaic.Lib.StableHlo.Predicate
import Idealize.ShloMosaic.PureOps.Ideal.Laws

set_option maxRecDepth 16384

noncomputable section

namespace Cert.KernelIdeal.HandValue

open Cert.KernelIdeal Cert.KernelIdeal.Gen Cert.Spec
open Idealize.ShloMosaic Idealize.ShloMosaic.ValueIdx

def adjHost (src dst : S262144.Idx → BitVec 32) (wt : S262144.Idx → EReal) : S8192x8192.Idx → EReal :=
  truncf (F := Ideal) (φ := .f32) .bf16
    (fun i => shapeCast S8192x8192
      (Host.scatterAdd (F := Ideal) (φ := .f32) scatter_S67108864_S262144x1_S262144_n_0_0_1
        (broadcastInDim S67108864 ![] bcast_S_S67108864 (constant (F := Ideal) S_ .f32 0x00000000#32))
        (broadcastInDim S262144x1 ![0] bcast_S262144_S262144x1_0
          (addi (muli dst (broadcastInDim S262144 ![] bcast_S_S262144 (constantI S_ 32 8192#32))) src))
        wt)
      shapeCasts_S67108864_S8192x8192 i)
    bitsLt_bf16_f32

theorem window_zero (e : S262144.Idx) (a : Fin 1) :
    scatter_S67108864_S262144x1_S262144_n_0_0_1.window e a = 0 := by
  obtain rfl : a = 0 := Fin.fin_one_eq_zero a
  rfl

theorem start_eq (e : Fin 262144) (idx : IVec S262144x1 32) (a : Fin 1) :
    scatter_S67108864_S262144x1_S262144_n_0_0_1.start (ix1 e) idx a = (idx (ix2 e 0)).toInt := by
  obtain rfl : a = 0 := Fin.fin_one_eq_zero a
  unfold ScatterDims.start
  rw [dif_pos (by decide)]
  congr 2
  funext b
  match b with
  | ⟨0, _⟩ => rfl
  | ⟨1, _⟩ => rfl

theorem resultIdx_eq_some_iff (e : Fin 262144) (idx : IVec S262144x1 32) (k : S67108864.Idx) :
    scatter_S67108864_S262144x1_S262144_n_0_0_1.resultIdx? (ix1 e) idx = some k
      ↔ (idx (ix2 e 0)).toInt = ((k 0).val : ℤ) := by
  have hk : (k 0).val < 67108864 := (k 0).isLt
  unfold ScatterDims.resultIdx?
  split
  · rename_i h
    rw [Option.some.injEq]
    constructor
    · intro hf
      have h0 := congrArg (fun f => (f 0).val) hf
      simp only [start_eq, window_zero] at h0
      have := (h 0).1
      simp only [start_eq, window_zero] at this
      omega
    · intro hv
      funext a
      obtain rfl : a = 0 := Fin.fin_one_eq_zero a
      apply Fin.ext
      simp only [start_eq, window_zero]
      show ((idx (ix2 e 0)).toInt + ((0 : ℕ) : ℤ)).toNat = (k 0).val
      omega
  · rename_i h
    constructor
    · intro hf; exact absurd hf (by simp)
    · intro hv
      exfalso
      apply h
      intro a
      obtain rfl : a = 0 := Fin.fin_one_eq_zero a
      rw [start_eq, window_zero]
      show 0 ≤ (idx (ix2 e 0)).toInt + ((0 : ℕ) : ℤ) ∧ (idx (ix2 e 0)).toInt + ((0 : ℕ) : ℤ) < ((67108864 : ℕ) : ℤ)
      omega

theorem flat_toInt (s d : BitVec 32) (hs : s.toNat < 8192) (hd : d.toNat < 8192) :
    (d * 8192#32 + s).toInt = ((8192 * d.toNat + s.toNat : ℕ) : ℤ) := by
  have h1 : (d * 8192#32 + s).toNat = 8192 * d.toNat + s.toNat := by
    rw [BitVec.toNat_add, BitVec.toNat_mul]
    show (d.toNat * 8192 % 2 ^ 32 + s.toNat) % 2 ^ 32 = _
    omega
  rw [BitVec.toInt_eq_toNat_cond, h1]
  split
  · rfl
  · rename_i h; exfalso; omega

theorem adjHost_eq (src dst : S262144.Idx → BitVec 32) (wt : S262144.Idx → EReal)
    (hs : InRange src) (hd : InRange dst) :
    c2 (adjHost src dst wt)
      = Spec.adj (fun e => node (src (ix1 e))) (fun e => node (dst (ix1 e))) (c1 wt) := by
  funext i j
  have hi : i.val < 8192 := i.isLt
  have hj : j.val < 8192 := j.isLt
  show adjHost src dst wt (ix2 i j) = _
  unfold adjHost
  rw [truncf_apply]
  rw [shapeCast_apply _ _ (ix2 i j) (ix1 ⟨8192 * i.val + j.val, by omega⟩)
    (by rw [Shape.rowMajor_val_one, Shape.rowMajor_val_two]
        show 8192 * i.val + j.val = i.val * 8192 + j.val
        omega)]
  show Ideal.hostScatterAdd _ _ _ wt _ = _
  unfold Ideal.hostScatterAdd Spec.adj
  refine congr (congrArg HAdd.hAdd ?_) ?_
  · exact Ideal.ofBits_zero_f32
  · rw [Finset.sum_filter, Finset.sum_filter, ← Equiv.sum_comp (idxEquiv1 (n := 262144)).symm]
    refine Finset.sum_congr rfl fun e _ => ?_
    refine if_congr ?_ rfl rfl
    show scatter_S67108864_S262144x1_S262144_n_0_0_1.resultIdx? (ix1 e) _ = some _ ↔ _
    rw [resultIdx_eq_some_iff]
    rw [broadcastInDim_apply ![0] bcast_S262144_S262144x1_0 _ (ix2 e 0) (ix1 e)
      (by intro a; obtain rfl : a = 0 := Fin.fin_one_eq_zero a; rfl)]
    show (dst (ix1 e) * 8192#32 + src (ix1 e)).toInt = ((8192 * i.val + j.val : ℕ) : ℤ) ↔ _
    have hse := hs (ix1 e)
    have hde := hd (ix1 e)
    rw [flat_toInt _ _ hse hde]
    unfold node
    simp only [Fin.ext_iff]
    omega

end Cert.KernelIdeal.HandValue

end
-- ==== Proof.KI.ValueOut.lean ====
import proofs.«431399_j28879360098971_2_alg».proof.Proof.KI.Run
import proofs.«431399_j28879360098971_2_alg».proof.Proof.KI.Carry
import proofs.«431399_j28879360098971_2_alg».proof.Proof.KI.ValLin
import proofs.«431399_j28879360098971_2_alg».proof.Proof.KI.ValAdj
import proofs.«431399_j28879360098971_2_alg».proof.Proof.KI.ValAdjMat
import proofs.«431399_j28879360098971_2_alg».proof.Proof.KI.ValHost
import proofs.«431399_j28879360098971_2_alg».proof.Proof.Spec
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Cert.Spec Idealize.ShloMosaic Idealize.ShloMosaic.TcCoe Idealize.ShloMosaic.ValueIdx
open Idealize.ShloMosaic.StableHlo
open Idealize.ShloMosaic.Pipeline (Dat)

variable (m : (ℓ : Loc nD τ sig) → Buf (Elt Ideal) ℓ) (ρ : Dev nD → PrngReg)

theorem c2_mk {α : Type} {n0 n1 : ℕ} (f : Fin n0 → Fin n1 → α) :
    c2 (α := α) (n0 := n0) (n1 := n1) (fun j => f (j 0) (j 1)) = f := rfl

theorem out_lin1 (c : Dev nD) :
    c2 (α := EReal) (n0 := 8192) (n1 := 512) ((dat2 (V5 m ρ) c).arrAt 3 cfg2.N) = Spec.lin (c2 (α := EReal) (n0 := 8192) (n1 := 512) (m ((c : Thread nD τ).loc main_arg0))) (c2 (α := EReal) (n0 := 512) (n1 := 512) (m ((c : Thread nD τ).loc main_arg6))) (c1 (α := EReal) (n := 512) (m ((c : Thread nD τ).loc main_arg7))) := by
  refine (congrArg (c2 (α := EReal) (n0 := 8192) (n1 := 512)) (arr2 (V5 m ρ) c)).trans ?_
  refine (c2_mk _).trans ?_
  rw [V5_main_arg0, V5_main_arg6, V5_main_v9]
  exact congrArg (Spec.lin _ _) (row0_biasRow512 _)

theorem out_adj (c : Dev nD) (hs : InRange (m ((c : Thread nD τ).loc main_arg1))) (hd : InRange (m ((c : Thread nD τ).loc main_arg2))) :
    c2 (α := EReal) (n0 := 8192) (n1 := 8192) (V7 m ρ c main_v18) = Spec.adj (fun e => node ((m ((c : Thread nD τ).loc main_arg1) : S262144.Idx → BitVec 32) (ix1 e))) (fun e => node ((m ((c : Thread nD τ).loc main_arg2) : S262144.Idx → BitVec 32) (ix1 e))) (c1 (α := EReal) (n := 262144) (m ((c : Thread nD τ).loc main_arg3))) :=
  (congrArg (c2 (α := EReal) (n0 := 8192) (n1 := 8192)) (V7_main_v18 m ρ c)).trans
    (adjHost_eq (m ((c : Thread nD τ).loc main_arg1)) (m ((c : Thread nD τ).loc main_arg2)) (m ((c : Thread nD τ).loc main_arg3)) hs hd)

theorem out_hid1 (c : Dev nD) :
    c2 (α := EReal) (n0 := 8192) (n1 := 512) (V7 m ρ c main_v19) = Spec.lin (c2 (α := EReal) (n0 := 8192) (n1 := 512) (m ((c : Thread nD τ).loc main_arg0))) (c2 (α := EReal) (n0 := 512) (n1 := 512) (m ((c : Thread nD τ).loc main_arg6))) (c1 (α := EReal) (n := 512) (m ((c : Thread nD τ).loc main_arg7))) :=
  (congrArg (c2 (α := EReal) (n0 := 8192) (n1 := 512)) (V7_main_v19 m ρ c)).trans (out_lin1 m ρ c)

theorem out_prod1 (c : Dev nD) (hs : InRange (m ((c : Thread nD τ).loc main_arg1))) (hd : InRange (m ((c : Thread nD τ).loc main_arg2))) :
    c2 (α := EReal) (n0 := 8192) (n1 := 512) ((dat3 (V7 m ρ) c).arrAt 2 cfg3.N) = Spec.denseMul (Spec.adj (fun e => node ((m ((c : Thread nD τ).loc main_arg1) : S262144.Idx → BitVec 32) (ix1 e))) (fun e => node ((m ((c : Thread nD τ).loc main_arg2) : S262144.Idx → BitVec 32) (ix1 e))) (c1 (α := EReal) (n := 262144) (m ((c : Thread nD τ).loc main_arg3)))) (Spec.lin (c2 (α := EReal) (n0 := 8192) (n1 := 512) (m ((c : Thread nD τ).loc main_arg0))) (c2 (α := EReal) (n0 := 512) (n1 := 512) (m ((c : Thread nD τ).loc main_arg6))) (c1 (α := EReal) (n := 512) (m ((c : Thread nD τ).loc main_arg7)))) := by
  refine (congrArg (c2 (α := EReal) (n0 := 8192) (n1 := 512)) (arr3 (V7 m ρ) c)).trans ?_
  refine (c2_mk _).trans ?_
  rw [out_adj m ρ c hs hd, out_hid1 m ρ c]

theorem out_lin2 (c : Dev nD) (hs : InRange (m ((c : Thread nD τ).loc main_arg1))) (hd : InRange (m ((c : Thread nD τ).loc main_arg2))) :
    c2 (α := EReal) (n0 := 8192) (n1 := 256) ((dat4 (V9 m ρ) c).arrAt 3 cfg4.N) = Spec.lin (Spec.relu (Spec.denseMul (Spec.adj (fun e => node ((m ((c : Thread nD τ).loc main_arg1) : S262144.Idx → BitVec 32) (ix1 e))) (fun e => node ((m ((c : Thread nD τ).loc main_arg2) : S262144.Idx → BitVec 32) (ix1 e))) (c1 (α := EReal) (n := 262144) (m ((c : Thread nD τ).loc main_arg3)))) (Spec.lin (c2 (α := EReal) (n0 := 8192) (n1 := 512) (m ((c : Thread nD τ).loc main_arg0))) (c2 (α := EReal) (n0 := 512) (n1 := 512) (m ((c : Thread nD τ).loc main_arg6))) (c1 (α := EReal) (n := 512) (m ((c : Thread nD τ).loc main_arg7)))))) (c2 (α := EReal) (n0 := 512) (n1 := 256) (m ((c : Thread nD τ).loc main_arg8))) (c1 (α := EReal) (n := 256) (m ((c : Thread nD τ).loc main_arg9))) := by
  refine (congrArg (c2 (α := EReal) (n0 := 8192) (n1 := 256)) (arr4 (V9 m ρ) c)).trans ?_
  refine (c2_mk _).trans ?_
  rw [V9_main_v20, out_prod1 m ρ c hs hd, V9_main_arg8, V9_main_v21]
  exact congrArg (Spec.lin _ _) (row0_biasRow256 _)

theorem out_hid2 (c : Dev nD) (hs : InRange (m ((c : Thread nD τ).loc main_arg1))) (hd : InRange (m ((c : Thread nD τ).loc main_arg2))) :
    c2 (α := EReal) (n0 := 8192) (n1 := 256) (V11 m ρ c main_v23) = Spec.lin (Spec.relu (Spec.denseMul (Spec.adj (fun e => node ((m ((c : Thread nD τ).loc main_arg1) : S262144.Idx → BitVec 32) (ix1 e))) (fun e => node ((m ((c : Thread nD τ).loc main_arg2) : S262144.Idx → BitVec 32) (ix1 e))) (c1 (α := EReal) (n := 262144) (m ((c : Thread nD τ).loc main_arg3)))) (Spec.lin (c2 (α := EReal) (n0 := 8192) (n1 := 512) (m ((c : Thread nD τ).loc main_arg0))) (c2 (α := EReal) (n0 := 512) (n1 := 512) (m ((c : Thread nD τ).loc main_arg6))) (c1 (α := EReal) (n := 512) (m ((c : Thread nD τ).loc main_arg7)))))) (c2 (α := EReal) (n0 := 512) (n1 := 256) (m ((c : Thread nD τ).loc main_arg8))) (c1 (α := EReal) (n := 256) (m ((c : Thread nD τ).loc main_arg9))) :=
  (congrArg (c2 (α := EReal) (n0 := 8192) (n1 := 256)) (V11_main_v23 m ρ c)).trans (out_lin2 m ρ c hs hd)

theorem out_result (c : Dev nD) (hs : InRange (m ((c : Thread nD τ).loc main_arg1))) (hd : InRange (m ((c : Thread nD τ).loc main_arg2))) :
    W12 m ρ c (Proc.devRef .tc main_v24)
      = (fun j => Spec.denseOut
          (c2 (α := EReal) (n0 := 8192) (n1 := 512) (m ((c : Thread nD τ).loc main_arg0)))
          (fun e => node ((m ((c : Thread nD τ).loc main_arg1) : S262144.Idx → BitVec 32) (ix1 e)))
          (fun e => node ((m ((c : Thread nD τ).loc main_arg2) : S262144.Idx → BitVec 32) (ix1 e)))
          (c1 (α := EReal) (n := 262144) (m ((c : Thread nD τ).loc main_arg3)))
          (c2 (α := EReal) (n0 := 512) (n1 := 512) (m ((c : Thread nD τ).loc main_arg6)))
          (c1 (α := EReal) (n := 512) (m ((c : Thread nD τ).loc main_arg7)))
          (c2 (α := EReal) (n0 := 512) (n1 := 256) (m ((c : Thread nD τ).loc main_arg8)))
          (c1 (α := EReal) (n := 256) (m ((c : Thread nD τ).loc main_arg9))) (j 0) (j 1) : S8192x256.Idx → EReal) := by
  refine (W12_main_v24 m ρ c).trans ((arr5 (V11 m ρ) c).trans ?_)
  rw [V11_main_v18, out_adj m ρ c hs hd, out_hid2 m ρ c hs hd]
  rfl

end Cert.KernelIdeal.HandValue

end
-- ==== Proof.KI.Value.lean ====
import proofs.«431399_j28879360098971_2_alg».proof.Proof.KI.Run
import proofs.«431399_j28879360098971_2_alg».proof.Proof.KI.Carry
import proofs.«431399_j28879360098971_2_alg».proof.Proof.KI.ValLin
import proofs.«431399_j28879360098971_2_alg».proof.Proof.KI.ValSim
import proofs.«431399_j28879360098971_2_alg».proof.Proof.KI.ValHost
import proofs.«431399_j28879360098971_2_alg».proof.Proof.KI.ValueOut
import proofs.«431399_j28879360098971_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Cert.Spec Idealize.ShloMosaic Idealize.ShloMosaic.TcCoe Idealize.ShloMosaic.ValueIdx
open Idealize.ShloMosaic.Pipeline (Dat)

variable (m : (ℓ : Loc nD τ sig) → Buf (Elt Ideal) ℓ) (ρ : Dev nD → PrngReg)

def simZ (c : Dev nD) : Fin 8192 → Fin 512 → EReal :=
  Spec.lin (c2 (α := EReal) (n0 := 8192) (n1 := 512) (m ((c : Thread nD τ).loc main_arg0)))
    (c2 (α := EReal) (n0 := 512) (n1 := 512) (m ((c : Thread nD τ).loc main_arg4)))
    (c1 (α := EReal) (n := 512) (m ((c : Thread nD τ).loc main_arg5)))

theorem simZ_arr (c : Dev nD) : (dat0 (V1 m ρ) c).arrAt 3 cfg0.N = (fun j => simZ m c (j 0) (j 1) : S8192x512.Idx → EReal) := by
  rw [arr0 (V1 m ρ) c, V1_main_arg0 m ρ c, V1_main_arg4 m ρ c, V1_main_v0 m ρ c]
  rw [show row0 (α := EReal) (n := 512) (shapeCast S1x512 (m ((c : Thread nD τ).loc main_arg5)) shapeCasts_S512_S1x512)
        = c1 (α := EReal) (n := 512) (m ((c : Thread nD τ).loc main_arg5)) from row0_biasRow512 _]
  rfl

theorem sim_rows (c : Dev nD) : c2 (α := EReal) (n0 := 8192) (n1 := 512) (V3 m ρ c main_v2) = simZ m c := by
  rw [V3_main_v2 m ρ c, simZ_arr m ρ c]
  rfl

theorem sim_lenCol (c : Dev nD) (r : Fin 8192) :
    c2 (α := EReal) (n0 := 8192) (n1 := 1) (V3 m ρ c main_v6) r 0 = Spec.rowNorm (simZ m c) r := by
  rw [V3_main_v6 m ρ c, simZ_arr m ρ c]
  exact n6_apply (fun j => simZ m c (j 0) (j 1)) r

theorem sim_lenRow (c : Dev nD) (s : Fin 8192) :
    row0 (α := EReal) (n := 8192) (V3 m ρ c main_v7) s = Spec.rowNorm (simZ m c) s := by
  rw [V3_main_v7 m ρ c, simZ_arr m ρ c]
  exact n7_apply (fun j => simZ m c (j 0) (j 1)) s

theorem simCl_eq (c : Dev nD) (r s : Fin 8192) : simCl (V3 m ρ) c r s = Spec.sim (simZ m c) r s := by
  unfold simCl Spec.sim Spec.cosine
  rw [sim_rows m ρ c, sim_lenCol m ρ c r, sim_lenRow m ρ c s]

theorem sim_result (c : Dev nD) :
    W12 m ρ c (Proc.devRef .tc main_v8)
      = (fun j => Spec.simOut
          (c2 (α := EReal) (n0 := 8192) (n1 := 512) (m ((c : Thread nD τ).loc main_arg0)))
          (c2 (α := EReal) (n0 := 512) (n1 := 512) (m ((c : Thread nD τ).loc main_arg4)))
          (c1 (α := EReal) (n := 512) (m ((c : Thread nD τ).loc main_arg5))) (j 0) (j 1) : S8192x8192.Idx → EReal) := by
  rw [W12_main_v8 m ρ c, arr1 (V3 m ρ) c]
  exact funext fun j => simCl_eq m ρ c (j 0) (j 1)

end Cert.KernelIdeal.HandValue

end
-- ==== Proof.RefImports.lean ====
import proofs.«431399_j28879360098971_2_alg».proof.Proof.Gen.ReferenceIdeal.Run
import proofs.«431399_j28879360098971_2_alg».proof.Proof.Gen.ReferenceIdeal.Read
-- ==== Proof.RefSpmm.lean ====
import proofs.«431399_j28879360098971_2_alg».proof.Proof.RefImports
import proofs.«431399_j28879360098971_2_alg».proof.Proof.Spec
import Idealize.ShloMosaic.Lib.StableHlo.Predicate

noncomputable section

namespace Cert.ReferenceIdeal.RefValue

open Cert.ReferenceIdeal Cert.ReferenceIdeal.Gen Cert.ReferenceIdeal.Read Cert.Spec Idealize.ShloMosaic
  Idealize.ShloMosaic.ValueIdx Idealize.ShloMosaic.TcCoe Idealize.SL.Sem Idealize.ShloMosaic.StableHlo

open Idealize.ShloMosaic.StableHlo

theorem node_of_lt (w : BitVec 32) (hw : w.toNat < 8192) : (⟨w.toNat, hw⟩ : Fin 8192) = node w :=
  Fin.ext (Nat.mod_eq_of_lt hw).symm

theorem clamp_of_lt (w : BitVec 32) (hw : w.toNat < 8192) : min w.toInt.toNat 8191 = w.toNat := by
  rw [Predicate.toInt_eq_toNat_of_lt (by omega), Int.toNat_natCast]
  omega

theorem src_word512 (a1 : S262144.Idx → BitVec 32) (hs : InRange a1) (e : S262144.Idx) :
    val_main_v33 (F := Ideal) a1 e = a1 e := by
  rw [val_main_v33_apply, val_main_v30_apply, val_main_v29_apply, val_main_c_1_apply]
  have h : ¬ IntOp.cmpi .slt (a1 e) 0#32 = 1#1 := by
    rw [Predicate.slt_iff_toNat (by have := hs e; omega) (by decide)]
    simp
  rw [eq_zero_of_ne_one h, select_zero]

theorem gather512_si (j : S262144x512.Idx) :
    gather_S8192x512_S262144x1_S262144x512_1_0_n_n_0_1_1512.siIdx j ⟨0, by decide⟩ = ix2 (j 0) 0 := by
  funext b
  match b with
  | ⟨0, _⟩ => rfl
  | ⟨1, _⟩ => rfl

theorem gather512 {α : Type} (x : S8192x512.Idx → α) (idx : IVec S262144x1 32) (j : S262144x512.Idx) :
    Host.gather gather_S8192x512_S262144x1_S262144x512_1_0_n_n_0_1_1512 x idx j
      = x (ix2 ⟨min (idx (ix2 (j 0) 0)).toInt.toNat 8191, by omega⟩ (j 1)) := by
  unfold Host.gather
  congr 1
  funext a
  apply Fin.ext
  match a with
  | ⟨0, _⟩ =>
    simp [GatherDims.operandIdx, GatherDims.start, GatherDims.offCoord, GatherDims.batchCoord,
      gather_S8192x512_S262144x1_S262144x512_1_0_n_n_0_1_1512, GatherDims.sKept, Shape.kept]
    exact congrArg (fun k => min (idx k).toInt.toNat 8191) (gather512_si j)
  | ⟨1, _⟩ =>
    simp [GatherDims.operandIdx, GatherDims.start, GatherDims.offCoord, GatherDims.batchCoord,
      gather_S8192x512_S262144x1_S262144x512_1_0_n_n_0_1_1512, GatherDims.sKept, Shape.kept]
    rfl

theorem scatter512_si (j : S262144x512.Idx) :
    scatter_S8192x512_S262144x1_S262144x512_1_0_0_1.siIdx j ⟨0, by decide⟩ = ix2 (j 0) 0 := by
  funext b
  match b with
  | ⟨0, _⟩ => rfl
  | ⟨1, _⟩ => rfl

theorem scatter512_start0 (idx : IVec S262144x1 32) (j : S262144x512.Idx) :
    scatter_S8192x512_S262144x1_S262144x512_1_0_0_1.start j idx 0 = (idx (ix2 (j 0) 0)).toInt := by
  simp [ScatterDims.start, scatter_S8192x512_S262144x1_S262144x512_1_0_0_1]
  exact congrArg (fun k => (idx k).toInt) (scatter512_si j)

theorem scatter512_start1 (idx : IVec S262144x1 32) (j : S262144x512.Idx) :
    scatter_S8192x512_S262144x1_S262144x512_1_0_0_1.start j idx 1 = 0 := by
  simp [ScatterDims.start, scatter_S8192x512_S262144x1_S262144x512_1_0_0_1]

theorem scatter512_window0 (j : S262144x512.Idx) :
    scatter_S8192x512_S262144x1_S262144x512_1_0_0_1.window j 0 = 0 := by
  simp [ScatterDims.window, scatter_S8192x512_S262144x1_S262144x512_1_0_0_1, ScatterDims.sKept, Shape.kept]

theorem scatter512_window1 (j : S262144x512.Idx) :
    scatter_S8192x512_S262144x1_S262144x512_1_0_0_1.window j 1 = (j 1).val := by
  simp [ScatterDims.window, scatter_S8192x512_S262144x1_S262144x512_1_0_0_1, ScatterDims.sKept, Shape.kept]
  rfl

theorem result512 (idx : IVec S262144x1 32) (j : S262144x512.Idx) (hlt : (idx (ix2 (j 0) 0)).toNat < 8192) :
    scatter_S8192x512_S262144x1_S262144x512_1_0_0_1.resultIdx? j idx
      = some (ix2 ⟨(idx (ix2 (j 0) 0)).toNat, hlt⟩ (j 1)) := by
  have hint : (idx (ix2 (j 0) 0)).toInt = ((idx (ix2 (j 0) 0)).toNat : Int) :=
    Predicate.toInt_eq_toNat_of_lt (by omega)
  unfold ScatterDims.resultIdx?
  have hall : ∀ a : Fin S8192x512.rank,
      0 ≤ scatter_S8192x512_S262144x1_S262144x512_1_0_0_1.start j idx a
            + scatter_S8192x512_S262144x1_S262144x512_1_0_0_1.window j a
        ∧ scatter_S8192x512_S262144x1_S262144x512_1_0_0_1.start j idx a
            + scatter_S8192x512_S262144x1_S262144x512_1_0_0_1.window j a < S8192x512.size a := by
    refine Fin.forall_fin_two.mpr ⟨?_, ?_⟩
    · rw [scatter512_start0, scatter512_window0, hint]
      show 0 ≤ ((idx (ix2 (j 0) 0)).toNat : ℤ) + ((0 : ℕ) : ℤ)
        ∧ ((idx (ix2 (j 0) 0)).toNat : ℤ) + ((0 : ℕ) : ℤ) < ((8192 : ℕ) : ℤ)
      omega
    · rw [scatter512_start1, scatter512_window1]
      have h1 : (j 1).val < 512 := idx2_lt1 j
      show 0 ≤ (0 : ℤ) + (((j 1).val : ℕ) : ℤ) ∧ (0 : ℤ) + (((j 1).val : ℕ) : ℤ) < ((512 : ℕ) : ℤ)
      omega
  rw [dif_pos hall]
  congr 1
  funext a
  apply Fin.ext
  match a with
  | ⟨0, _⟩ =>
    show (scatter_S8192x512_S262144x1_S262144x512_1_0_0_1.start j idx 0
      + scatter_S8192x512_S262144x1_S262144x512_1_0_0_1.window j 0).toNat = (idx (ix2 (j 0) 0)).toNat
    rw [scatter512_start0, scatter512_window0, hint]
    simp
  | ⟨1, _⟩ =>
    show (scatter_S8192x512_S262144x1_S262144x512_1_0_0_1.start j idx 1
      + scatter_S8192x512_S262144x1_S262144x512_1_0_0_1.window j 1).toNat = (j 1).val
    rw [scatter512_start1, scatter512_window1]
    simp

theorem dst_word512 (a2 : S262144.Idx → BitVec 32) (j : S262144x512.Idx) :
    val_main_v39 (F := Ideal) a2 (ix2 (j 0) 0) = a2 (ix1 (j 0)) := by
  rw [val_main_v39_apply]
  congr 1
  funext d
  match d with
  | ⟨0, _⟩ => rfl

theorem srcidx_word512 (a1 : S262144.Idx → BitVec 32) (hs : InRange a1) (j : S262144x512.Idx) :
    val_main_v34 (F := Ideal) a1 (ix2 (j 0) 0) = a1 (ix1 (j 0)) := by
  rw [val_main_v34_apply, src_word512 a1 hs]
  congr 1
  funext d
  match d with
  | ⟨0, _⟩ => rfl

theorem wt512 (a3 : S262144.Idx → EReal) (j : S262144x512.Idx) :
    val_main_v36 (F := Ideal) a3 j = a3 (ix1 (j 0)) := by
  rw [val_main_v36_apply, val_main_v28_apply]
  congr 1
  funext d
  match d with
  | ⟨0, _⟩ => rfl

theorem land512 (a2 : S262144.Idx → BitVec 32) (hd : InRange a2) (j : S262144x512.Idx) :
    scatter_S8192x512_S262144x1_S262144x512_1_0_0_1.resultIdx? j (val_main_v39 (F := Ideal) a2)
      = some (ix2 (node (a2 (ix1 (j 0)))) (j 1)) := by
  have hw : (val_main_v39 (F := Ideal) a2 (ix2 (j 0) 0)).toNat < 8192 := by
    rw [dst_word512]; exact hd _
  rw [result512 _ j hw]
  congr 2
  rw [node_of_lt _ hw, dst_word512]

theorem upd512 (h : S8192x512.Idx → EReal) (a1 : S262144.Idx → BitVec 32) (a3 : S262144.Idx → EReal)
    (hs : InRange a1) (j : S262144x512.Idx) :
    (mulf (F := Ideal) (φ := .f32) (val_main_v36 (F := Ideal) a3)
        (Host.gather gather_S8192x512_S262144x1_S262144x512_1_0_n_n_0_1_1512 h (val_main_v34 (F := Ideal) a1))) j
      = a3 (ix1 (j 0)) * h (ix2 (node (a1 (ix1 (j 0)))) (j 1)) := by
  rw [mulf_apply, wt512, gather512]
  congr 3
  apply Fin.ext
  show min (val_main_v34 (F := Ideal) a1 (ix2 (j 0) 0)).toInt.toNat 8191 = (a1 (ix1 (j 0))).toNat % 8192
  rw [srcidx_word512 a1 hs, clamp_of_lt _ (hs _), Nat.mod_eq_of_lt (hs _)]

theorem spmm512 (h : S8192x512.Idx → EReal) (a1 a2 : S262144.Idx → BitVec 32) (a3 : S262144.Idx → EReal)
    (hs : InRange a1) (hd : InRange a2) :
    Host.scatterAdd (F := Ideal) (φ := .f32) scatter_S8192x512_S262144x1_S262144x512_1_0_0_1 (val_main_v38 (F := Ideal)) (val_main_v39 (F := Ideal) a2)
        (mulf (val_main_v36 (F := Ideal) a3)
          (Host.gather gather_S8192x512_S262144x1_S262144x512_1_0_n_n_0_1_1512 h (val_main_v34 (F := Ideal) a1)))
      = (fun j => Spec.edgeSum (fun e => node (a1 (ix1 e))) (fun e => node (a2 (ix1 e))) (c1 a3) (c2 h) (j 0) (j 1)
          : S8192x512.Idx → EReal) := by
  funext i
  obtain ⟨i0, i1, rfl⟩ : ∃ (i0 : Fin 8192) (i1 : Fin 512), i = ix2 i0 i1 := ⟨i 0, i 1, eq_ix2 i⟩
  show Ideal.hostScatterAdd scatter_S8192x512_S262144x1_S262144x512_1_0_0_1 (val_main_v38 (F := Ideal))
      (val_main_v39 (F := Ideal) a2) _ (ix2 i0 i1)
    = Spec.edgeSum (fun e => node (a1 (ix1 e))) (fun e => node (a2 (ix1 e))) (c1 a3) (c2 h) i0 i1
  unfold Ideal.hostScatterAdd Spec.edgeSum
  rw [val_main_v38_apply, val_main_cst_3_apply]
  show Ideal.ofBits .f32 0x00000000#32 + _ = _
  rw [Ideal.ofBits_zero_f32]
  refine congrArg (fun x : EReal => 0 + x) ?_
  symm
  refine Finset.sum_bij (fun e _ => (ix2 e i1 : S262144x512.Idx)) ?_ ?_ ?_ ?_
  ·
    intro e he
    rw [Finset.mem_filter] at he ⊢
    refine ⟨Finset.mem_univ _, ?_⟩
    rw [land512 a2 hd]
    have he2 : node (a2 (ix1 e)) = i0 := he.2
    show some (ix2 (node (a2 (ix1 e))) i1) = some (ix2 i0 i1)
    rw [he2]
  ·
    intro e₁ _ e₂ _ he
    exact congrFun he 0
  ·
    intro j hj
    rw [Finset.mem_filter, land512 a2 hd] at hj
    have hj' : ix2 (node (a2 (ix1 (j 0)))) (j 1) = (ix2 i0 i1 : S8192x512.Idx) := Option.some.inj hj.2
    have h0 : node (a2 (ix1 (j 0))) = i0 := congrFun hj' 0
    have h1 : j 1 = i1 := congrFun hj' 1
    refine ⟨j 0, Finset.mem_filter.mpr ⟨Finset.mem_univ _, h0⟩, ?_⟩
    rw [← h1]
    exact (eq_ix2 j).symm
  ·
    intro e _
    rw [upd512 h a1 a3 hs]

theorem src_word256 (a1 : S262144.Idx → BitVec 32) (hs : InRange a1) (e : S262144.Idx) :
    val_main_v51 (F := Ideal) a1 e = a1 e := by
  rw [val_main_v51_apply, val_main_v48_apply, val_main_v47_apply, val_main_c_4_apply]
  have h : ¬ IntOp.cmpi .slt (a1 e) 0#32 = 1#1 := by
    rw [Predicate.slt_iff_toNat (by have := hs e; omega) (by decide)]
    simp
  rw [eq_zero_of_ne_one h, select_zero]

theorem gather256_si (j : S262144x256.Idx) :
    gather_S8192x256_S262144x1_S262144x256_1_0_n_n_0_1_1256.siIdx j ⟨0, by decide⟩ = ix2 (j 0) 0 := by
  funext b
  match b with
  | ⟨0, _⟩ => rfl
  | ⟨1, _⟩ => rfl

theorem gather256 {α : Type} (x : S8192x256.Idx → α) (idx : IVec S262144x1 32) (j : S262144x256.Idx) :
    Host.gather gather_S8192x256_S262144x1_S262144x256_1_0_n_n_0_1_1256 x idx j
      = x (ix2 ⟨min (idx (ix2 (j 0) 0)).toInt.toNat 8191, by omega⟩ (j 1)) := by
  unfold Host.gather
  congr 1
  funext a
  apply Fin.ext
  match a with
  | ⟨0, _⟩ =>
    simp [GatherDims.operandIdx, GatherDims.start, GatherDims.offCoord, GatherDims.batchCoord,
      gather_S8192x256_S262144x1_S262144x256_1_0_n_n_0_1_1256, GatherDims.sKept, Shape.kept]
    exact congrArg (fun k => min (idx k).toInt.toNat 8191) (gather256_si j)
  | ⟨1, _⟩ =>
    simp [GatherDims.operandIdx, GatherDims.start, GatherDims.offCoord, GatherDims.batchCoord,
      gather_S8192x256_S262144x1_S262144x256_1_0_n_n_0_1_1256, GatherDims.sKept, Shape.kept]
    rfl

theorem scatter256_si (j : S262144x256.Idx) :
    scatter_S8192x256_S262144x1_S262144x256_1_0_0_1.siIdx j ⟨0, by decide⟩ = ix2 (j 0) 0 := by
  funext b
  match b with
  | ⟨0, _⟩ => rfl
  | ⟨1, _⟩ => rfl

theorem scatter256_start0 (idx : IVec S262144x1 32) (j : S262144x256.Idx) :
    scatter_S8192x256_S262144x1_S262144x256_1_0_0_1.start j idx 0 = (idx (ix2 (j 0) 0)).toInt := by
  simp [ScatterDims.start, scatter_S8192x256_S262144x1_S262144x256_1_0_0_1]
  exact congrArg (fun k => (idx k).toInt) (scatter256_si j)

theorem scatter256_start1 (idx : IVec S262144x1 32) (j : S262144x256.Idx) :
    scatter_S8192x256_S262144x1_S262144x256_1_0_0_1.start j idx 1 = 0 := by
  simp [ScatterDims.start, scatter_S8192x256_S262144x1_S262144x256_1_0_0_1]

theorem scatter256_window0 (j : S262144x256.Idx) :
    scatter_S8192x256_S262144x1_S262144x256_1_0_0_1.window j 0 = 0 := by
  simp [ScatterDims.window, scatter_S8192x256_S262144x1_S262144x256_1_0_0_1, ScatterDims.sKept, Shape.kept]

theorem scatter256_window1 (j : S262144x256.Idx) :
    scatter_S8192x256_S262144x1_S262144x256_1_0_0_1.window j 1 = (j 1).val := by
  simp [ScatterDims.window, scatter_S8192x256_S262144x1_S262144x256_1_0_0_1, ScatterDims.sKept, Shape.kept]
  rfl

theorem result256 (idx : IVec S262144x1 32) (j : S262144x256.Idx) (hlt : (idx (ix2 (j 0) 0)).toNat < 8192) :
    scatter_S8192x256_S262144x1_S262144x256_1_0_0_1.resultIdx? j idx
      = some (ix2 ⟨(idx (ix2 (j 0) 0)).toNat, hlt⟩ (j 1)) := by
  have hint : (idx (ix2 (j 0) 0)).toInt = ((idx (ix2 (j 0) 0)).toNat : Int) :=
    Predicate.toInt_eq_toNat_of_lt (by omega)
  unfold ScatterDims.resultIdx?
  have hall : ∀ a : Fin S8192x256.rank,
      0 ≤ scatter_S8192x256_S262144x1_S262144x256_1_0_0_1.start j idx a
            + scatter_S8192x256_S262144x1_S262144x256_1_0_0_1.window j a
        ∧ scatter_S8192x256_S262144x1_S262144x256_1_0_0_1.start j idx a
            + scatter_S8192x256_S262144x1_S262144x256_1_0_0_1.window j a < S8192x256.size a := by
    refine Fin.forall_fin_two.mpr ⟨?_, ?_⟩
    · rw [scatter256_start0, scatter256_window0, hint]
      show 0 ≤ ((idx (ix2 (j 0) 0)).toNat : ℤ) + ((0 : ℕ) : ℤ)
        ∧ ((idx (ix2 (j 0) 0)).toNat : ℤ) + ((0 : ℕ) : ℤ) < ((8192 : ℕ) : ℤ)
      omega
    · rw [scatter256_start1, scatter256_window1]
      have h1 : (j 1).val < 256 := idx2_lt1 j
      show 0 ≤ (0 : ℤ) + (((j 1).val : ℕ) : ℤ) ∧ (0 : ℤ) + (((j 1).val : ℕ) : ℤ) < ((256 : ℕ) : ℤ)
      omega
  rw [dif_pos hall]
  congr 1
  funext a
  apply Fin.ext
  match a with
  | ⟨0, _⟩ =>
    show (scatter_S8192x256_S262144x1_S262144x256_1_0_0_1.start j idx 0
      + scatter_S8192x256_S262144x1_S262144x256_1_0_0_1.window j 0).toNat = (idx (ix2 (j 0) 0)).toNat
    rw [scatter256_start0, scatter256_window0, hint]
    simp
  | ⟨1, _⟩ =>
    show (scatter_S8192x256_S262144x1_S262144x256_1_0_0_1.start j idx 1
      + scatter_S8192x256_S262144x1_S262144x256_1_0_0_1.window j 1).toNat = (j 1).val
    rw [scatter256_start1, scatter256_window1]
    simp

theorem dst_word256 (a2 : S262144.Idx → BitVec 32) (j : S262144x256.Idx) :
    val_main_v57 (F := Ideal) a2 (ix2 (j 0) 0) = a2 (ix1 (j 0)) := by
  rw [val_main_v57_apply]
  congr 1
  funext d
  match d with
  | ⟨0, _⟩ => rfl

theorem srcidx_word256 (a1 : S262144.Idx → BitVec 32) (hs : InRange a1) (j : S262144x256.Idx) :
    val_main_v52 (F := Ideal) a1 (ix2 (j 0) 0) = a1 (ix1 (j 0)) := by
  rw [val_main_v52_apply, src_word256 a1 hs]
  congr 1
  funext d
  match d with
  | ⟨0, _⟩ => rfl

theorem wt256 (a3 : S262144.Idx → EReal) (j : S262144x256.Idx) :
    val_main_v54 (F := Ideal) a3 j = a3 (ix1 (j 0)) := by
  rw [val_main_v54_apply, val_main_v46_apply]
  congr 1
  funext d
  match d with
  | ⟨0, _⟩ => rfl

theorem land256 (a2 : S262144.Idx → BitVec 32) (hd : InRange a2) (j : S262144x256.Idx) :
    scatter_S8192x256_S262144x1_S262144x256_1_0_0_1.resultIdx? j (val_main_v57 (F := Ideal) a2)
      = some (ix2 (node (a2 (ix1 (j 0)))) (j 1)) := by
  have hw : (val_main_v57 (F := Ideal) a2 (ix2 (j 0) 0)).toNat < 8192 := by
    rw [dst_word256]; exact hd _
  rw [result256 _ j hw]
  congr 2
  rw [node_of_lt _ hw, dst_word256]

theorem upd256 (h : S8192x256.Idx → EReal) (a1 : S262144.Idx → BitVec 32) (a3 : S262144.Idx → EReal)
    (hs : InRange a1) (j : S262144x256.Idx) :
    (mulf (F := Ideal) (φ := .f32) (val_main_v54 (F := Ideal) a3)
        (Host.gather gather_S8192x256_S262144x1_S262144x256_1_0_n_n_0_1_1256 h (val_main_v52 (F := Ideal) a1))) j
      = a3 (ix1 (j 0)) * h (ix2 (node (a1 (ix1 (j 0)))) (j 1)) := by
  rw [mulf_apply, wt256, gather256]
  congr 3
  apply Fin.ext
  show min (val_main_v52 (F := Ideal) a1 (ix2 (j 0) 0)).toInt.toNat 8191 = (a1 (ix1 (j 0))).toNat % 8192
  rw [srcidx_word256 a1 hs, clamp_of_lt _ (hs _), Nat.mod_eq_of_lt (hs _)]

theorem spmm256 (h : S8192x256.Idx → EReal) (a1 a2 : S262144.Idx → BitVec 32) (a3 : S262144.Idx → EReal)
    (hs : InRange a1) (hd : InRange a2) :
    Host.scatterAdd (F := Ideal) (φ := .f32) scatter_S8192x256_S262144x1_S262144x256_1_0_0_1 (val_main_v56 (F := Ideal)) (val_main_v57 (F := Ideal) a2)
        (mulf (val_main_v54 (F := Ideal) a3)
          (Host.gather gather_S8192x256_S262144x1_S262144x256_1_0_n_n_0_1_1256 h (val_main_v52 (F := Ideal) a1)))
      = (fun j => Spec.edgeSum (fun e => node (a1 (ix1 e))) (fun e => node (a2 (ix1 e))) (c1 a3) (c2 h) (j 0) (j 1)
          : S8192x256.Idx → EReal) := by
  funext i
  obtain ⟨i0, i1, rfl⟩ : ∃ (i0 : Fin 8192) (i1 : Fin 256), i = ix2 i0 i1 := ⟨i 0, i 1, eq_ix2 i⟩
  show Ideal.hostScatterAdd scatter_S8192x256_S262144x1_S262144x256_1_0_0_1 (val_main_v56 (F := Ideal))
      (val_main_v57 (F := Ideal) a2) _ (ix2 i0 i1)
    = Spec.edgeSum (fun e => node (a1 (ix1 e))) (fun e => node (a2 (ix1 e))) (c1 a3) (c2 h) i0 i1
  unfold Ideal.hostScatterAdd Spec.edgeSum
  rw [val_main_v56_apply, val_main_cst_6_apply]
  show Ideal.ofBits .f32 0x00000000#32 + _ = _
  rw [Ideal.ofBits_zero_f32]
  refine congrArg (fun x : EReal => 0 + x) ?_
  symm
  refine Finset.sum_bij (fun e _ => (ix2 e i1 : S262144x256.Idx)) ?_ ?_ ?_ ?_
  ·
    intro e he
    rw [Finset.mem_filter] at he ⊢
    refine ⟨Finset.mem_univ _, ?_⟩
    rw [land256 a2 hd]
    have he2 : node (a2 (ix1 e)) = i0 := he.2
    show some (ix2 (node (a2 (ix1 e))) i1) = some (ix2 i0 i1)
    rw [he2]
  ·
    intro e₁ _ e₂ _ he
    exact congrFun he 0
  ·
    intro j hj
    rw [Finset.mem_filter, land256 a2 hd] at hj
    have hj' : ix2 (node (a2 (ix1 (j 0)))) (j 1) = (ix2 i0 i1 : S8192x256.Idx) := Option.some.inj hj.2
    have h0 : node (a2 (ix1 (j 0))) = i0 := congrFun hj' 0
    have h1 : j 1 = i1 := congrFun hj' 1
    refine ⟨j 0, Finset.mem_filter.mpr ⟨Finset.mem_univ _, h0⟩, ?_⟩
    rw [← h1]
    exact (eq_ix2 j).symm
  ·
    intro e _
    rw [upd256 h a1 a3 hs]

end Cert.ReferenceIdeal.RefValue

end
-- ==== Proof.RefValue.lean ====
import proofs.«431399_j28879360098971_2_alg».proof.Proof.RefImports
import proofs.«431399_j28879360098971_2_alg».proof.Proof.Spec
import proofs.«431399_j28879360098971_2_alg».proof.Proof.RefSpmm
import Idealize.ShloMosaic.Lib.StableHlo.Predicate

noncomputable section

namespace Cert.ReferenceIdeal.RefValue

open Cert.ReferenceIdeal Cert.ReferenceIdeal.Gen Cert.ReferenceIdeal.Read Cert.Spec Idealize.ShloMosaic
  Idealize.ShloMosaic.ValueIdx Idealize.ShloMosaic.TcCoe Idealize.SL.Sem Idealize.ShloMosaic.StableHlo

theorem ofBits_one_f32 : Ideal.ofBits .f32 0x3F800000#32 = 1 := by
  simp [Ideal.ofBits, Ideal.ieee]
  rw [← EReal.coe_mul, ← EReal.coe_one]
  congr 1
  norm_num

theorem z_apply (a0 : S8192x512.Idx → EReal) (a4 : S512x512.Idx → EReal) (a5 : S512.Idx → EReal) (i : S8192x512.Idx) :
    val_main_v3 (F := Ideal) a0 a4 a5 i = lin (c2 a0) (c2 a4) (c1 a5) (i 0) (i 1) := by
  rw [val_main_v3_apply, val_main_v0_apply, val_main_v2_apply, val_main_v1_apply]
  show (∑ k : Fin 512, a0 (lidx_main_v0 i k) * a4 (ridx_main_v0 i k)) + a5 (idx_main_v1 (idx_main_v2 i)) = _
  unfold lin
  congr 1
  · refine Finset.sum_congr rfl fun k _ => ?_
    congr 2
    · funext a; match a with | ⟨0, _⟩ => rfl | ⟨1, _⟩ => rfl
    · funext a; match a with | ⟨0, _⟩ => rfl | ⟨1, _⟩ => rfl
  · show a5 _ = a5 _
    congr 1
    funext a; match a with | ⟨0, _⟩ => rfl

theorem gram_apply (a0 : S8192x512.Idx → EReal) (a4 : S512x512.Idx → EReal) (a5 : S512.Idx → EReal) (j : S8192x8192.Idx) :
    val_main_v5 (F := Ideal) a0 a4 a5 j
      = ∑ k : Fin 512, lin (c2 a0) (c2 a4) (c1 a5) (j 0) k * lin (c2 a0) (c2 a4) (c1 a5) (j 1) k := by
  rw [val_main_v5_apply]
  refine Finset.sum_congr rfl fun k _ => ?_
  rw [val_main_v4_apply, z_apply, z_apply]
  rfl

theorem norm_apply (a0 : S8192x512.Idx → EReal) (a4 : S512x512.Idx → EReal) (a5 : S512.Idx → EReal) (i : S8192x1.Idx) :
    val_main_v9 (F := Ideal) a0 a4 a5 i = rowNorm (lin (c2 a0) (c2 a4) (c1 a5)) (i 0) := by
  rw [val_main_v9_apply, val_main_v8_apply, val_main_v7_apply, val_main_cst_apply]
  show Ideal.sqrt (Ideal.ofBits .f32 0x00000000#32 + _) = _
  rw [Ideal.ofBits_zero_f32]
  unfold rowNorm
  congr 2
  refine Finset.sum_congr rfl fun k _ => ?_
  rw [val_main_v6_apply, z_apply]
  rfl

theorem diag_apply (i k : Fin 8192) :
    val_main_v20 (F := Ideal) (ix2 i k) = if i = k then 1 else 0 := by
  rw [val_main_v20_apply, val_main_v19_apply, val_main_v18_apply, val_main_v15_apply, val_main_v16_apply, val_main_v17_apply,
    val_main_c_apply]
  show FloatOps.uitofp (F := Ideal) .f32 (IntOp.cmpi .eq (IntOp.addi (BitVec.ofNat 32 i.val) 0#32) (BitVec.ofNat 32 k.val)) = _
  have h0 := i.isLt
  have h1 := k.isLt
  have hadd : IntOp.addi (BitVec.ofNat 32 i.val) 0#32 = BitVec.ofNat 32 i.val := by
    show BitVec.ofNat 32 i.val + 0#32 = _
    simp
  rw [hadd]
  by_cases hij : i = k
  · rw [if_pos hij, hij, Predicate.cmpi_eq_iff.mpr rfl]
    show (((1#1 : BitVec 1).toNat : ℝ) : EReal) = 1
    simp
  · rw [if_neg hij]
    have hne : ¬ IntOp.cmpi .eq (BitVec.ofNat 32 i.val) (BitVec.ofNat 32 k.val) = 1#1 := by
      rw [Predicate.cmpi_eq_iff]
      intro h
      apply hij
      apply Fin.ext
      have := congrArg BitVec.toNat h
      simp only [BitVec.toNat_ofNat] at this
      omega
    rw [eq_zero_of_ne_one hne]
    show (((0#1 : BitVec 1).toNat : ℝ) : EReal) = 0
    simp

theorem sim_eq (a0 : S8192x512.Idx → EReal) (a4 : S512x512.Idx → EReal) (a5 : S512.Idx → EReal) :
    val_main_v23 (F := Ideal) a0 a4 a5
      = (fun j => Spec.simOut (c2 a0) (c2 a4) (c1 a5) (j 0) (j 1) : S8192x8192.Idx → EReal) := by
  funext j
  obtain ⟨i, k, rfl⟩ : ∃ i k : Fin 8192, j = ix2 i k := ⟨j 0, j 1, eq_ix2 j⟩
  show _ = Spec.simOut (c2 a0) (c2 a4) (c1 a5) i k
  rw [val_main_v23_apply, val_main_v22_apply, val_main_v21_apply, val_main_cst_0_apply, diag_apply, val_main_v14_apply,
    gram_apply, val_main_v13_apply, val_main_v11_apply, val_main_v12_apply, val_main_v10_apply, norm_apply, norm_apply]
  show (Ideal.ofBits .f32 0x3F800000#32 - _) * Ideal.div _ (rowNorm _ i * rowNorm _ k) = _
  rw [ofBits_one_f32]
  unfold simOut sim cosine
  by_cases hij : i = k
  · rw [if_pos hij, if_pos hij]
    have : (1 : EReal) - 1 = 0 := by
      rw [← EReal.coe_one, ← EReal.coe_sub, sub_self, EReal.coe_zero]
    rw [this, zero_mul]
  · rw [if_neg hij, if_neg hij, sub_zero, one_mul]

theorem lin1_apply (a0 : S8192x512.Idx → EReal) (a6 : S512x512.Idx → EReal) (a7 : S512.Idx → EReal) (i : S8192x512.Idx) :
    val_main_v27 (F := Ideal) a0 a6 a7 i = lin (c2 a0) (c2 a6) (c1 a7) (i 0) (i 1) := by
  rw [val_main_v27_apply, val_main_v24_apply, val_main_v26_apply, val_main_v25_apply]
  show (∑ k : Fin 512, a0 (lidx_main_v24 i k) * a6 (ridx_main_v24 i k)) + a7 (idx_main_v25 (idx_main_v26 i)) = _
  unfold lin
  congr 1
  · refine Finset.sum_congr rfl fun k _ => ?_
    congr 2
    · funext a; match a with | ⟨0, _⟩ => rfl | ⟨1, _⟩ => rfl
    · funext a; match a with | ⟨0, _⟩ => rfl | ⟨1, _⟩ => rfl
  · show a7 _ = a7 _
    congr 1
    funext a; match a with | ⟨0, _⟩ => rfl

section Edge

variable (a0 : S8192x512.Idx → EReal) (a1 a2 : S262144.Idx → BitVec 32) (a3 : S262144.Idx → EReal)
  (a6 : S512x512.Idx → EReal) (a7 : S512.Idx → EReal) (a8 : S512x256.Idx → EReal) (a9 : S256.Idx → EReal)

theorem edge1_eq (hs : InRange a1) (hd : InRange a2) :
    val_main_v40 (F := Ideal) a0 a1 a2 a3 a6 a7
      = (fun j => Spec.edgeSum (fun e => node (a1 (ix1 e))) (fun e => node (a2 (ix1 e))) (c1 a3)
          (lin (c2 a0) (c2 a6) (c1 a7)) (j 0) (j 1) : S8192x512.Idx → EReal) := by
  have h := spmm512 (val_main_v27 (F := Ideal) a0 a6 a7) a1 a2 a3 hs hd
  have hc : c2 (val_main_v27 (F := Ideal) a0 a6 a7) = lin (c2 a0) (c2 a6) (c1 a7) := by
    funext i k
    exact lin1_apply a0 a6 a7 (ix2 i k)
  rw [hc] at h
  exact h

theorem relu_apply (hs : InRange a1) (hd : InRange a2) (i : S8192x512.Idx) :
    val_main_v41 (F := Ideal) a0 a1 a2 a3 a6 a7 i
      = relu (Spec.edgeSum (fun e => node (a1 (ix1 e))) (fun e => node (a2 (ix1 e))) (c1 a3)
          (lin (c2 a0) (c2 a6) (c1 a7))) (i 0) (i 1) := by
  rw [val_main_v41_apply, val_main_call0_v0_apply, val_main_call0_cst_apply, edge1_eq a0 a1 a2 a3 a6 a7 hs hd]
  show max _ (Ideal.ofBits .f32 0x00000000#32) = _
  rw [Ideal.ofBits_zero_f32]
  rfl

theorem lin2_apply (hs : InRange a1) (hd : InRange a2) (i : S8192x256.Idx) :
    val_main_v45 (F := Ideal) a0 a1 a2 a3 a6 a7 a8 a9 i
      = lin (relu (Spec.edgeSum (fun e => node (a1 (ix1 e))) (fun e => node (a2 (ix1 e))) (c1 a3)
          (lin (c2 a0) (c2 a6) (c1 a7)))) (c2 a8) (c1 a9) (i 0) (i 1) := by
  rw [val_main_v45_apply, val_main_v42_apply, val_main_v44_apply, val_main_v43_apply]
  have hR := relu_apply a0 a1 a2 a3 a6 a7 hs hd
  generalize relu (Spec.edgeSum (fun e => node (a1 (ix1 e))) (fun e => node (a2 (ix1 e))) (c1 a3)
      (lin (c2 a0) (c2 a6) (c1 a7))) = R at hR ⊢
  generalize val_main_v41 (F := Ideal) a0 a1 a2 a3 a6 a7 = v at hR ⊢
  show (∑ k : Fin 512, v (lidx_main_v42 i k) * a8 (ridx_main_v42 i k)) + a9 (idx_main_v43 (idx_main_v44 i))
    = (∑ k : Fin 512, R (i 0) k * a8 (ix2 k (i 1))) + a9 (ix1 (i 1))
  congr 1
  · refine Finset.sum_congr rfl fun k _ => ?_
    rw [hR]
    congr 2
    funext a; match a with | ⟨0, _⟩ => rfl | ⟨1, _⟩ => rfl
  · congr 1
    funext a; match a with | ⟨0, _⟩ => rfl

end Edge

theorem out_eq (a0 : S8192x512.Idx → EReal) (a1 a2 : S262144.Idx → BitVec 32) (a3 : S262144.Idx → EReal)
    (a4 : S512x512.Idx → EReal) (a5 : S512.Idx → EReal) (a6 : S512x512.Idx → EReal) (a7 : S512.Idx → EReal)
    (a8 : S512x256.Idx → EReal) (a9 : S256.Idx → EReal) (hs : InRange a1) (hd : InRange a2) :
    val_main_v58 (F := Ideal) a0 a1 a2 a3 a6 a7 a8 a9
      = (fun j => Spec.edgeOut (c2 a0) (fun e => node (a1 (ix1 e))) (fun e => node (a2 (ix1 e))) (c1 a3) (c2 a6) (c1 a7)
          (c2 a8) (c1 a9) (j 0) (j 1) : S8192x256.Idx → EReal) := by
  have h := spmm256 (val_main_v45 (F := Ideal) a0 a1 a2 a3 a6 a7 a8 a9) a1 a2 a3 hs hd
  have hc : c2 (val_main_v45 (F := Ideal) a0 a1 a2 a3 a6 a7 a8 a9)
      = lin (relu (Spec.edgeSum (fun e => node (a1 (ix1 e))) (fun e => node (a2 (ix1 e))) (c1 a3)
          (lin (c2 a0) (c2 a6) (c1 a7)))) (c2 a8) (c1 a9) := by
    funext i k
    exact lin2_apply a0 a1 a2 a3 a6 a7 a8 a9 hs hd (ix2 i k)
  rw [hc] at h
  exact h

theorem run_spec (m : (ℓ : Loc nD τ sig) → Buf (Elt Ideal) ℓ) (ρ : Dev nD → PrngReg)
    (hs : ∀ c : Dev nD, InRange (m ((c.tc : Thread nD τ).loc main_arg1)))
    (hd : ∀ c : Dev nD, InRange (m ((c.tc : Thread nD τ).loc main_arg2))) :
    θ_run defs (onTc (τ := τ) (main (F := Ideal))) ⟨m, fun _ => 0, ρ⟩ fun r => ∀ c : Dev nD,
      r.2.mem ((c.tc : Thread nD τ).loc main_v58)
          = (fun j => Spec.edgeOut (c2 (m ((c.tc : Thread nD τ).loc main_arg0)))
              (fun e => node (m ((c.tc : Thread nD τ).loc main_arg1) (ix1 e)))
              (fun e => node (m ((c.tc : Thread nD τ).loc main_arg2) (ix1 e)))
              (c1 (m ((c.tc : Thread nD τ).loc main_arg3))) (c2 (m ((c.tc : Thread nD τ).loc main_arg6)))
              (c1 (m ((c.tc : Thread nD τ).loc main_arg7))) (c2 (m ((c.tc : Thread nD τ).loc main_arg8)))
              (c1 (m ((c.tc : Thread nD τ).loc main_arg9))) (j 0) (j 1))
      ∧ r.2.mem ((c.tc : Thread nD τ).loc main_v23)
          = (fun j => Spec.simOut (c2 (m ((c.tc : Thread nD τ).loc main_arg0))) (c2 (m ((c.tc : Thread nD τ).loc main_arg4)))
              (c1 (m ((c.tc : Thread nD τ).loc main_arg5))) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨((h c).1.trans (val_main_v58_eq _ _ _ _ _ _ _ _)).trans
          (out_eq _ _ _ _ (m ((c.tc : Thread nD τ).loc main_arg4)) (m ((c.tc : Thread nD τ).loc main_arg5)) _ _ _ _ (hs c) (hd c)),
        ((h c).2.1.trans (val_main_v23_eq _ _ _)).trans (sim_eq _ _ _),
        (h c).2.2⟩)
    (Value.run m ρ)

end Cert.ReferenceIdeal.RefValue

end
-- ==== Proof.Alg.lean ====
import proofs.«431399_j28879360098971_2_alg».proof.Proof.Spec
import Mathlib.Data.EReal.Operations
import Mathlib.Algebra.BigOperators.Fin
import Mathlib.Algebra.BigOperators.Ring.Finset
import Mathlib.Data.Fintype.BigOperators
import Mathlib.Logic.Equiv.Fin.Basic

noncomputable section

namespace Cert.Spec

open Finset

theorem IsReal.zero : IsReal 0 := ⟨0, EReal.coe_zero.symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.max {x y : EReal} (hx : IsReal x) (hy : IsReal y) : IsReal (max x y) := by
  rcases max_choice x y with h | h <;> rw [h] <;> assumption

theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem isReal_sum {ι : Type} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih (fun i hi => hf i (Finset.mem_insert_of_mem hi)))

theorem isReal_lin {M K N : ℕ} {x : Fin M → Fin K → EReal} {w : Fin K → Fin N → EReal} {b : Fin N → EReal}
    (hx : ∀ i k, IsReal (x i k)) (hw : ∀ k j, IsReal (w k j)) (hb : ∀ j, IsReal (b j)) :
    ∀ i j, IsReal (lin x w b i j) := fun i j =>
  (isReal_sum _ _ (fun k _ => (hx i k).mul (hw k j))).add (hb j)

theorem isReal_relu {M N : ℕ} {x : Fin M → Fin N → EReal} (hx : ∀ i j, IsReal (x i j)) :
    ∀ i j, IsReal (relu x i j) := fun i j => (hx i j).max IsReal.zero

theorem isReal_edgeSum {E N D : ℕ} {src dst : Fin E → Fin N} {wt : Fin E → EReal} {h : Fin N → Fin D → EReal}
    (hw : ∀ e, IsReal (wt e)) (hh : ∀ j f, IsReal (h j f)) :
    ∀ i f, IsReal (edgeSum src dst wt h i f) := fun i f =>
  IsReal.zero.add (isReal_sum _ _ (fun e _ => (hw e).mul (hh (src e) f)))

theorem sum_blocks {M : Type} [AddCommMonoid M] (F : Fin 8192 → M) :
    ∑ j : Fin 8192, F j = ∑ q : Fin 4, ∑ k : Fin 2048, F ⟨q.val * 2048 + k.val, by omega⟩ := by
  rw [← Fintype.sum_prod_type' (fun (q : Fin 4) (k : Fin 2048) => F ⟨q.val * 2048 + k.val, by omega⟩)]
  rw [← Equiv.sum_comp (finProdFinEquiv : Fin 4 × Fin 2048 ≃ Fin 8192) F]
  refine Fintype.sum_congr _ _ (fun p => ?_)
  congr 1
  apply Fin.ext
  show p.2.val + 2048 * p.1.val = p.1.val * 2048 + p.2.val
  omega

theorem denseMul_eq_sum {N D : ℕ} (A : Fin N → Fin 8192 → EReal) (h : Fin 8192 → Fin D → EReal)
    (i : Fin N) (f : Fin D) : denseMul A h i f = ∑ j : Fin 8192, A i j * h j f := by
  unfold denseMul
  simp only [zero_add]
  rw [sum_blocks (fun j => A i j * h j f), Fin.sum_univ_four]

theorem real_dense_eq_edge {E N : ℕ} (src dst : Fin E → Fin N) (w : Fin E → ℝ) (g : Fin N → ℝ) (i : Fin N) :
    ∑ j : Fin N, (∑ e ∈ univ.filter (fun e : Fin E => dst e = i ∧ src e = j), w e) * g j
      = ∑ e ∈ univ.filter (fun e : Fin E => dst e = i), w e * g (src e) := by
  calc ∑ j : Fin N, (∑ e ∈ univ.filter (fun e : Fin E => dst e = i ∧ src e = j), w e) * g j
      = ∑ j : Fin N, ∑ e ∈ (univ.filter (fun e : Fin E => dst e = i)).filter (fun e => src e = j),
          w e * g (src e) := by
        refine Finset.sum_congr rfl (fun j _ => ?_)
        rw [Finset.sum_mul, Finset.filter_filter]
        refine Finset.sum_congr rfl (fun e he => ?_)
        rw [(Finset.mem_filter.mp he).2.2]
    _ = ∑ e ∈ univ.filter (fun e : Fin E => dst e = i), w e * g (src e) :=
        Finset.sum_fiberwise _ _ _

theorem denseMul_adj_eq_edgeSum {D : ℕ} (src dst : Fin 262144 → Fin 8192) (wt : Fin 262144 → EReal)
    (h : Fin 8192 → Fin D → EReal) (hw : ∀ e, IsReal (wt e)) (hh : ∀ j f, IsReal (h j f)) :
    denseMul (adj src dst wt) h = edgeSum src dst wt h := by
  funext i f
  rw [denseMul_eq_sum]
  choose w hw using hw
  choose g hg using hh
  unfold adj edgeSum
  simp only [zero_add, hw, hg, coe_sum, ← EReal.coe_mul]
  exact congrArg _ (real_dense_eq_edge src dst w (fun j => g j f) i)

theorem denseOut_eq_edgeOut (X : Fin 8192 → Fin 512 → EReal) (src dst : Fin 262144 → Fin 8192)
    (wt : Fin 262144 → EReal) (W1 : Fin 512 → Fin 512 → EReal) (b1 : Fin 512 → EReal)
    (W2 : Fin 512 → Fin 256 → EReal) (b2 : Fin 256 → EReal)
    (hX : ∀ i k, IsReal (X i k)) (hw : ∀ e, IsReal (wt e)) (hW1 : ∀ k n, IsReal (W1 k n))
    (hb1 : ∀ n, IsReal (b1 n)) (hW2 : ∀ k n, IsReal (W2 k n)) (hb2 : ∀ n, IsReal (b2 n)) :
    denseOut X src dst wt W1 b1 W2 b2 = edgeOut X src dst wt W1 b1 W2 b2 := by
  unfold denseOut edgeOut
  have h1 : ∀ i k, IsReal (lin X W1 b1 i k) := isReal_lin hX hW1 hb1
  rw [denseMul_adj_eq_edgeSum src dst wt (lin X W1 b1) hw h1]
  exact denseMul_adj_eq_edgeSum src dst wt _ hw
    (isReal_lin (isReal_relu (isReal_edgeSum hw h1)) hW2 hb2)

end Cert.Spec

end
-- ==== Proof.PreFacts.lean ====
import proofs.«431399_j28879360098971_2_alg».proof.Pre_finite_inputs
import proofs.«431399_j28879360098971_2_alg».proof.Proof.Gen.Pre_finite_inputs
import proofs.«431399_j28879360098971_2_alg».proof.Proof.Spec
import Idealize.ShloMosaic.Lib.ReduceAll
import Idealize.ShloMosaic.Lib.StableHlo.Predicate
import Idealize.ShloMosaic.PureOps.Ideal

noncomputable section

namespace Cert.PreFacts

open Idealize.ShloMosaic Cert.Pre_finite_inputs

instance : Subsingleton S_.Idx := ⟨fun a b => funext fun d => d.elim0⟩

theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : Spec.IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [StableHlo.Predicate.ofBool_eq_one_iff, decide_eq_true_eq, max_lt_iff] at h
  induction x using EReal.rec with
  | bot => exact absurd h.2 (by simp)
  | coe r => exact ⟨r, rfl⟩
  | top => exact absurd h.1 (by simp)

theorem all_real {s : Shape} {axes : List (Fin s.rank)} (x : s.Idx → EReal) (hb : S_.BroadcastsInDim s (![] : Fin 0 → Fin s.rank))
    (hr : s.ReducesTo axes S_) (h0 : 0 < S_.numel)
    (e : Host.reduce IntOp.andi (cmpf (F := Ideal) (φ := .f32) .olt (Host.absf (F := Ideal) (φ := .f32) x)
          (broadcastInDim s ![] hb (constant (F := Ideal) S_ .f32 0x7F800000#32)))
        (constantI S_ 1 1#1) hr h0 ValueIdx.ix0 = 1#1) (i : s.Idx) : Spec.IsReal (x i) :=
  real_of_abs_lt (x i) (Host.reduce_andi_all _ _ hr h0 _ e i)

theorem toNat_lt (w : BitVec 32) (h0 : IntOp.cmpi .sge w 0#32 = 1#1) (h1 : IntOp.cmpi .slt w 8192#32 = 1#1) :
    w.toNat < 8192 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

theorem all_range (a : S262144.Idx → BitVec 32) (hb : S_.BroadcastsInDim S262144 (![] : Fin 0 → Fin S262144.rank))
    (hr : S262144.ReducesTo [0] S_) (h0 : 0 < S_.numel)
    (e : Host.reduce IntOp.andi
          (andi (cmpi .sge a (broadcastInDim S262144 ![] hb (constantI S_ 32 0#32)))
            (cmpi .slt a (broadcastInDim S262144 ![] hb (constantI S_ 32 8192#32))))
        (constantI S_ 1 1#1) hr h0 ValueIdx.ix0 = 1#1) : Spec.InRange a := by
  intro i
  have hi := Host.reduce_andi_all _ _ hr h0 _ e i
  obtain ⟨hge, hlt⟩ := IntOp.andi_eq_one.1 hi
  exact toNat_lt (a i) hge hlt

theorem vandi_apply {s : Shape} {w : Nat} (x y : IVec s w) (i : s.Idx) : andi x y i = IntOp.andi (x i) (y i) := rfl

theorem of_pre [Cert.Pre_finite_inputs.Facts]
    (a0 : S8192x512.Idx → EReal) (a1 a2 : S262144.Idx → BitVec 32) (a3 : S262144.Idx → EReal)
    (a4 : S512x512.Idx → EReal) (a5 : S512.Idx → EReal) (a6 : S512x512.Idx → EReal) (a7 : S512.Idx → EReal)
    (a8 : S512x256.Idx → EReal) (a9 : S256.Idx → EReal)
    (h : Cert.Pre_finite_inputs.fn (F := Ideal) a0 a1 a2 a3 a4 a5 a6 a7 a8 a9 = fun _ => 1#1) :
    (∀ i, Spec.IsReal (a0 i)) ∧ Spec.InRange a1 ∧ Spec.InRange a2 ∧ (∀ i, Spec.IsReal (a3 i)) ∧ (∀ i, Spec.IsReal (a4 i))
      ∧ (∀ i, Spec.IsReal (a5 i)) ∧ (∀ i, Spec.IsReal (a6 i)) ∧ (∀ i, Spec.IsReal (a7 i)) ∧ (∀ i, Spec.IsReal (a8 i))
      ∧ (∀ i, Spec.IsReal (a9 i)) := by
  have e := congrFun h ValueIdx.ix0
  dsimp only [fn, fn_part1, fn_part2, fn_part3] at e
  simp only [vandi_apply, IntOp.andi_eq_one] at e
  obtain ⟨⟨⟨⟨⟨⟨⟨⟨⟨e0, e3⟩, e4⟩, e5⟩, e6⟩, e7⟩, e8⟩, e9⟩, e1⟩, e2⟩ := e
  exact ⟨all_real a0 _ _ _ e0, all_range a1 _ _ _ e1, all_range a2 _ _ _ e2, all_real a3 _ _ _ e3, all_real a4 _ _ _ e4,
    all_real a5 _ _ _ e5, all_real a6 _ _ _ e6, all_real a7 _ _ _ e7, all_real a8 _ _ _ e8, all_real a9 _ _ _ e9⟩

end Cert.PreFacts

end
-- ==== Proof.lean ====
/- The kernel aggregates through the dense matrix `A i j = Σ {e : dst e = i, src e = j} wt e`, the reference edge by
   edge; a finite sum of reals regroups by source node and a real factor distributes over it (real inputs, endpoints
   that name nodes). The similarity is one formula on both sides, up to `0 · x = 0` and `1 · x = x` on the diagonal. -/
import proofs.«431399_j28879360098971_2_alg».proof.Defs
import proofs.«431399_j28879360098971_2_alg».proof.Proof.Gen.Kernel
import proofs.«431399_j28879360098971_2_alg».proof.Proof.Gen.KernelIdeal
import proofs.«431399_j28879360098971_2_alg».proof.Proof.Gen.ReferenceIdeal
import proofs.«431399_j28879360098971_2_alg».proof.Proof.Gen.Pre_finite_inputs
import proofs.«431399_j28879360098971_2_alg».proof.Proof.KI.Run
import proofs.«431399_j28879360098971_2_alg».proof.Proof.KI.Value
import proofs.«431399_j28879360098971_2_alg».proof.Proof.KI.ValueOut
import proofs.«431399_j28879360098971_2_alg».proof.Proof.RefValue
import proofs.«431399_j28879360098971_2_alg».proof.Proof.Alg
import proofs.«431399_j28879360098971_2_alg».proof.Proof.PreFacts
import Idealize.ShloMosaic.Adequacy
import Idealize.ShloMosaic.Init

noncomputable section

namespace Cert.Proof

open Idealize.ShloMosaic Idealize.ShloMosaic.TcCoe Idealize.SL.Sem Cert.Spec

-- The two kernel programs are one term, and the frame holds for every float type.
set_option smartUnfolding false in
set_option maxHeartbeats 2000000 in
theorem frame_k : Cert.frame_Kernel := fun m ρ _ => Cert.KernelIdeal.Hand.frame (F := Bits) m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem algebraic : Cert.algebraic_KernelIdeal_ReferenceIdeal := by
  intro m ρ m' ρ' hpre hagree
  have hf := fun c => Cert.PreFacts.of_pre _ _ _ _ _ _ _ _ _ _ (hpre c)
  refine ⟨fun c => Cert.KernelIdeal.Hand.W12 m ρ c (Proc.devRef .tc Cert.KernelIdeal.main_v24),
    fun c => Cert.KernelIdeal.Hand.W12 m ρ c (Proc.devRef .tc Cert.KernelIdeal.main_v8), ?_, ?_⟩
  · refine (θ_run Cert.KernelIdeal.defs _ _).mono (fun r h c => ?_) (Cert.KernelIdeal.Hand.run_all (F := Ideal) m ρ)
    refine ⟨h c _ (Cert.KernelIdeal.Hand.mem_uc Cert.KernelIdeal.main_v24 (by decide)),
      h c _ (Cert.KernelIdeal.Hand.mem_uc Cert.KernelIdeal.main_v8 (by decide)), ?_, ?_, ?_, ?_, ?_, ?_, ?_, ?_, ?_, ?_⟩ <;>
      exact (h c _ (Cert.KernelIdeal.Hand.mem_uc _ (by decide))).trans (Cert.KernelIdeal.Hand.W12_arg m ρ c (by decide))
  · have hs' : ∀ c : Dev Cert.ReferenceIdeal.nD, InRange (m' ((c.tc : Thread Cert.ReferenceIdeal.nD Cert.ReferenceIdeal.τ).loc Cert.ReferenceIdeal.main_arg1)) :=
      fun c => by rw [(hagree c).2.1]; exact (hf c).2.1
    have hd' : ∀ c : Dev Cert.ReferenceIdeal.nD, InRange (m' ((c.tc : Thread Cert.ReferenceIdeal.nD Cert.ReferenceIdeal.τ).loc Cert.ReferenceIdeal.main_arg2)) :=
      fun c => by rw [(hagree c).2.2.1]; exact (hf c).2.2.1
    refine (θ_run Cert.ReferenceIdeal.defs _ _).mono (fun r h c => ⟨(h c).1.trans ?_, (h c).2.1.trans ?_, (h c).2.2⟩)
      (Cert.ReferenceIdeal.RefValue.run_spec m' ρ' hs' hd')
    · show _ = Cert.KernelIdeal.Hand.W12 m ρ c (Proc.devRef .tc Cert.KernelIdeal.main_v24)
      rw [Cert.KernelIdeal.HandValue.out_result m ρ c (hf c).2.1 (hf c).2.2.1,
        (hagree c).1, (hagree c).2.1, (hagree c).2.2.1, (hagree c).2.2.2.1, (hagree c).2.2.2.2.2.2.1,
        (hagree c).2.2.2.2.2.2.2.1, (hagree c).2.2.2.2.2.2.2.2.1, (hagree c).2.2.2.2.2.2.2.2.2]
      funext j
      exact (congrFun (congrFun (Cert.Spec.denseOut_eq_edgeOut _ _ _ _ _ _ _ _
        (fun i k => (hf c).1 _) (fun e => (hf c).2.2.2.1 _) (fun k n => (hf c).2.2.2.2.2.2.1 _) (fun n => (hf c).2.2.2.2.2.2.2.1 _)
        (fun k n => (hf c).2.2.2.2.2.2.2.2.1 _) (fun n => (hf c).2.2.2.2.2.2.2.2.2 _)) (j 0)) (j 1)).symm
    · show _ = Cert.KernelIdeal.Hand.W12 m ρ c (Proc.devRef .tc Cert.KernelIdeal.main_v8)
      rw [Cert.KernelIdeal.HandValue.sim_result m ρ c, (hagree c).1, (hagree c).2.2.2.2.1, (hagree c).2.2.2.2.2.1]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
